-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_inv_temp" .f32 0xC1A00000#32 ((-268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S8192x512 : Shape := ⟨2, ![8192, 512]⟩
abbrev S4096x8192 : Shape := ⟨2, ![4096, 8192]⟩
abbrev S4096x1 : Shape := ⟨2, ![4096, 1]⟩
abbrev S4x1x8192 : Shape := ⟨3, ![4, 1, 8192]⟩
abbrev S1024x512 : Shape := ⟨2, ![1024, 512]⟩
abbrev S1024x1024 : Shape := ⟨2, ![1024, 1024]⟩
abbrev S1024x1 : Shape := ⟨2, ![1024, 1]⟩
abbrev S1x1x1024 : Shape := ⟨3, ![1, 1, 1024]⟩
abbrev S1024 : Shape := ⟨1, ![1024]⟩
abbrev S1x1024 : Shape := ⟨2, ![1, 1024]⟩
abbrev S_ : Shape := ⟨0, ![]⟩
abbrev S1x8192 : Shape := ⟨2, ![1, 8192]⟩

abbrev nBuf : Space → Nat
  | .hbm => 9
  | .vmem => 25
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S8192x512, .f32⟩
  | .hbm, ⟨3, _⟩ => ⟨S4096x8192, .f32⟩
  | .hbm, ⟨4, _⟩ => ⟨S4096x1, .f32⟩
  | .hbm, ⟨5, _⟩ => ⟨S4x1x8192, .f32⟩
  | .hbm, ⟨6, _⟩ => ⟨S_, .f32⟩
  | .hbm, ⟨7, _⟩ => ⟨S1x8192, .f32⟩
  | .hbm, ⟨8, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x1, .f32⟩
  | .local _ .vmem, ⟨7, _⟩ => ⟨S1024x1, .f32⟩
  | .local _ .vmem, ⟨8, _⟩ => ⟨S1x1x1024, .f32⟩
  | .local _ .vmem, ⟨9, _⟩ => ⟨S1x1x1024, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x1024, .f32⟩
  | .local _ .vmem, ⟨15, _⟩ => ⟨S1024x1024, .f32⟩
  | .local _ .vmem, ⟨16, _⟩ => ⟨S1024x1, .f32⟩
  | .local _ .vmem, ⟨17, _⟩ => ⟨S1024x1, .f32⟩
  | .local _ .vmem, ⟨18, _⟩ => ⟨S1x8192, .f32⟩
  | .local _ .vmem, ⟨19, _⟩ => ⟨S1024x512, .f32⟩
  | .local _ .vmem, ⟨20, _⟩ => ⟨S1024x512, .f32⟩
  | .local _ .vmem, ⟨21, _⟩ => ⟨S1024x1, .f32⟩
  | .local _ .vmem, ⟨22, _⟩ => ⟨S1024x1, .f32⟩
  | .local _ .vmem, ⟨23, _⟩ => ⟨S1024x512, .f32⟩
  | .local _ .vmem, ⟨24, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc1_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 8], ![false, false]⟩

def k1_mult1 (i : grid1.Coords) : BitVec 32 :=
  let arg1 : BitVec 32 := BitVec.ofNat 32 (i 1).val
  let c1024_i32 : BitVec 32 := 1024#32
  let v4 : BitVec 32 := Scalar.muli arg1 c1024_i32
  v4
def k1_off1 (i : grid1.Coords) : Fin 2 → Nat :=
  let c0_5 : Index := 0#32
  let arg1 : BitVec 32 := BitVec.ofNat 32 (i 1).val
  let c1024_i32 : BitVec 32 := 1024#32
  let v4 : BitVec 32 := Scalar.muli arg1 c1024_i32
  let v5 : BitVec 32 := v4
  let v8 : Index := Scalar.indexCast v5
  ![0, v8.toNat]
def k1_cond2 (i : grid1.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_29 : BitVec 32 := 0#32
  let v57 : BitVec 1 := Scalar.cmpi .ne v56 c0_i32_29
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x8192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  concatenates_S4096x512_S4096x512_S8192x512_d0 : Shape.Concatenates [S4096x512, S4096x512] S8192x512 0
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  reduces_S1024x1024_S1024_2 : S1024x1024.Reduces [0] S1024
  shapeCasts_S1024_S1x1024 : S1024.ShapeCasts S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  reducesTo_S4x1x8192_S1x8192_d0 : S4x1x8192.ReducesTo [0] S1x8192
  h_S_ : 0 < S_.numel
  shapeCasts_S1024x1024_S1024x1024 : S1024x1024.ShapeCasts S1024x1024
  h_S1x1024 : 0 < S1x1024.numel
  shapeCasts_S1x1024_S1x1024 : S1x1024.ShapeCasts S1x1024
  bitsLt_bf16_f32 : FTy.bits .bf16 < FTy.bits .f32
  broadcasts_S1024x1_S1024x512 : S1024x1.Broadcasts S1024x512
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x8192.size a
  hwx0_2 : ∀ i : grid0.Coords, EltTy.bits .f32 = 32 ∨ (Rect.block (s := S4096x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S4x1x8192.size a
  hwx0_4 : ∀ i : grid0.Coords, EltTy.bits .f32 = 32 ∨ (Rect.block (s := S4x1x8192) S1x1x1024.size (cc0_transform_4 i) (hinb0_4 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1x1024.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .f32 = 32 ∨ (Rect.block (s := S4096x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .f32 = 32 ∨ (Rect.block (s := S8192x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x8192.size a
  hwx1_2 : ∀ i : grid1.Coords, EltTy.bits .f32 = 32 ∨ (Rect.block (s := S4096x8192) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S4096x1.size a
  hwx1_3 : ∀ i : grid1.Coords, EltTy.bits .f32 = 32 ∨ (Rect.block (s := S4096x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8192.size a ≤ S1x8192.size a
  hwx1_4 : ∀ i : grid1.Coords, EltTy.bits .f32 = 32 ∨ (Rect.block (s := S1x8192) S1x8192.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S4096x512.size a
  hwx1_5 : ∀ i : grid1.Coords, EltTy.bits .f32 = 32 ∨ (Rect.block (s := S4096x512) S1024x512.size (cc1_transform_5 i) (hinb1_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x8192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x512 : Shape := ⟨2, ![4096, 512]⟩
abbrev S8192x512 : Shape := ⟨2, ![8192, 512]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S1x8192 : Shape := ⟨2, ![1, 8192]⟩
abbrev S4096x8192 : Shape := ⟨2, ![4096, 8192]⟩
abbrev S512x8192 : Shape := ⟨2, ![512, 8192]⟩
abbrev S4096x2 : Shape := ⟨2, ![4096, 2]⟩
abbrev S4096x4096 : Shape := ⟨2, ![4096, 4096]⟩

abbrev nBuf : Space → Nat
  | .hbm => 80
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S8192x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S512x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S4096x1, .i32⟩
  | .hbm, ⟨41, _⟩ => ⟨S4096x1, .i32⟩
  | .hbm, ⟨42, _⟩ => ⟨S4096x2, .i32⟩
  | .hbm, ⟨43, _⟩ => ⟨S_, .f32⟩
  | .hbm, ⟨44, _⟩ => ⟨S4096, .f32⟩
  | .hbm, ⟨45, _⟩ => ⟨S4096x8192, .f32⟩
  | .hbm, ⟨46, _⟩ => ⟨S4096x8192, .f32⟩
  | .hbm, ⟨47, _⟩ => ⟨S_, .f32⟩
  | .hbm, ⟨48, _⟩ => ⟨S4096x8192, .f32⟩
  | .hbm, ⟨49, _⟩ => ⟨S4096x8192, .f32⟩
  | .hbm, ⟨50, _⟩ => ⟨S4096x8192, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S8192, .f32⟩
  | .hbm, ⟨56, _⟩ => ⟨S1x8192, .f32⟩
  | .hbm, ⟨57, _⟩ => ⟨S4096x8192, .f32⟩
  | .hbm, ⟨58, _⟩ => ⟨S4096x8192, .f32⟩
  | .hbm, ⟨59, _⟩ => ⟨S4096x8192, .f32⟩
  | .hbm, ⟨60, _⟩ => ⟨S_, .f32⟩
  | .hbm, ⟨61, _⟩ => ⟨S4096x8192, .f32⟩
  | .hbm, ⟨62, _⟩ => ⟨S4096x8192, .f32⟩
  | .hbm, ⟨63, _⟩ => ⟨S4096x8192, .f32⟩
  | .hbm, ⟨64, _⟩ => ⟨S4096x8192, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x4096, .f32⟩
  | .hbm, ⟨71, _⟩ => ⟨S4096x4096, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x4096, .f32⟩
  | .hbm, ⟨76, _⟩ => ⟨S4096x4096, .f32⟩
  | .hbm, ⟨77, _⟩ => ⟨S4096x512, .f32⟩
  | .hbm, ⟨78, _⟩ => ⟨S4096x512, .f32⟩
  | .hbm, ⟨79, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_10 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]

class Facts₀ : Prop where
  concatenates_S4096x512_S4096x512_S8192x512_d0 : Shape.Concatenates [S4096x512, S4096x512] S8192x512 0
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S8192x512_S8192_d1 : S8192x512.ReducesTo [1] S8192
  bcast_S8192_S8192x1_0 : S8192.BroadcastsInDim S8192x1 (![0] : Fin 1 → Fin S8192x1.rank)
  transposes_S8192x1_S1x8192_1_0 : S8192x1.Transposes [1, 0] S1x8192
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  transposes_S8192x512_S512x8192_1_0 : S8192x512.Transposes [1, 0] S512x8192
  bcast_S_S4096x8192 : S_.BroadcastsInDim S4096x8192 (![] : Fin 0 → Fin S4096x8192.rank)
  bcast_S_S4096 : S_.BroadcastsInDim S4096 (![] : Fin 0 → Fin S4096.rank)
  concatenates_S4096x1_S4096x1_S4096x2_d1 : Shape.Concatenates [S4096x1, S4096x1] S4096x2 1
  reducesTo_S4096x8192_S4096_d1 : S4096x8192.ReducesTo [1] S4096
  reducesTo_S4096x8192_S8192_d0 : S4096x8192.ReducesTo [0] S8192
  bcast_S8192_S1x8192_1 : S8192.BroadcastsInDim S1x8192 (![1] : Fin 1 → Fin S1x8192.rank)
  slices_S4096x8192_S4096x4096_0_0 : S4096x8192.Slices ![0, 0] S4096x4096
  slices_S4096x8192_S4096x4096_0_4096 : S4096x8192.Slices ![0, 4096] S4096x4096
  reducesTo_S4096x4096_S4096_d1 : S4096x4096.ReducesTo [1] S4096
  bcast_S4096x1_S4096x4096_0_1 : S4096x1.BroadcastsInDim S4096x4096 (![0, 1] : Fin 2 → Fin S4096x4096.rank)
  dot_S4096x512_S512x8192_S4096x8192_1_0_0_1_n_n_wf : DotDims.WF S4096x512 S512x8192 S4096x8192 [1] [0] [0] [1] [] []
  scatter_S4096x8192_S4096x2_S4096_n_01_01_1_wf : ScatterDims.WF S4096x8192 S4096x2 S4096 [] [0, 1] [0, 1] 1
  dot_S4096x4096_S4096x512_S4096x512_1_0_0_1_n_n_wf : DotDims.WF S4096x4096 S4096x512 S4096x512 [1] [0] [0] [1] [] []

variable [Facts₀]

def dot_S4096x512_S512x8192_S4096x8192_1_0_0_1_n_n : DotDims S4096x512 S512x8192 S4096x8192 where
  lhsContracting := [1]
  rhsContracting := [0]
  lhsNonContracting := [0]
  rhsNonContracting := [1]
  lhsBatch := []
  rhsBatch := []
  wf := dot_S4096x512_S512x8192_S4096x8192_1_0_0_1_n_n_wf
def scatter_S4096x8192_S4096x2_S4096_n_01_01_1 : ScatterDims S4096x8192 S4096x2 S4096 where
  updateWindowDims := []
  insertedWindowDims := [0, 1]
  scatterDimsToOperandDims := [0, 1]
  indexVectorDim := 1
  wf := scatter_S4096x8192_S4096x2_S4096_n_01_01_1_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf

class Facts : Prop extends Facts₀ where

variable [Facts]
-- ==== Proof.Small.lean ====
import proofs.«405954_j50337016709322_3_alg».proof.Defs
import proofs.«405954_j50337016709322_3_alg».proof.Proof.Gen.KernelIdeal
import proofs.«405954_j50337016709322_3_alg».proof.Proof.Gen.ReferenceIdeal
import proofs.«405954_j50337016709322_3_alg».proof.Proof.Gen.Pre_finite_inputs
import proofs.«405954_j50337016709322_3_alg».proof.Proof.Gen.ReferenceIdeal.Run

noncomputable section

namespace Cert.Proof.Small

open Idealize.ShloMosaic Idealize.SL.Sem

theorem preserves : Cert.preserves_Kernel_KernelIdeal :=
  IdealRules.named_const.statement Cert.KernelIdeal.κ "neg_inv_temp" .f32 0xC1A00000#32 ((-268435456 / 13421773 : ℝ) : EReal) rfl

theorem frame_ri [hR : Cert.ReferenceIdeal.Facts] [hP : Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.Small

end
-- ==== Proof.WordAssembly.lean ====
/- The whole program's run from the two pallas_calls' proof data: every buffer's contents are known between the items. -/
import proofs.«405954_j50337016709322_3_alg».proof.Proof.Gen.Kernel.Launch
import proofs.«405954_j50337016709322_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Contents (F : FTy → Type) : Type := (c : Dev nD) → (b : Ref sig .tc) → Buf (Elt F) ((c : Thread nD τ).loc b)

structure Half0 (V : Contents F) where
  dat : (c : Dev nD) → Dat τ (Elt F) Unit ℕ (UR sig nD τ) ℕ cfg0 c
  A_eq : ∀ c w, (dat c).A w = V c (Pipeline.arrRef spec0 w)
  q_eq : ∀ c w, (dat c).q w = fullShare
  owed_eq : ∀ c t, (dat c).owed t = 0
  rec_eq : ∀ c t, (dat c).recorded t = Set.univ
  body : ∀ c, BodyObligation (dat c) (defs₀ (F := F)) Variants.none () Set.univ
  hin : ∀ c, (Pipeline.ΦA spec0 c : sProp 𝕄) ⊢ (dat c).Φ 0
  hout : ∀ c, (dat c).Φ (Fin.last cfg0.N) ⊢ (Pipeline.ΦA spec0 c : sProp 𝕄)

structure Half1 (V : Contents F) where
  dat : (c : Dev nD) → Dat τ (Elt F) Unit ℕ (UR sig nD τ) ℕ cfg1 c
  A_eq : ∀ c w, (dat c).A w = V c (Pipeline.arrRef spec1 w)
  q_eq : ∀ c w, (dat c).q w = fullShare
  owed_eq : ∀ c t, (dat c).owed t = 0
  rec_eq : ∀ c t, (dat c).recorded t = Set.univ
  body : ∀ c, BodyObligation (dat c) (defs₀ (F := F)) Variants.none () Set.univ
  hin : ∀ c, (Pipeline.ΦA spec1 c : sProp 𝕄) ⊢ (dat c).Φ 0
  hout : ∀ c, (dat c).Φ (Fin.last cfg1.N) ⊢ (Pipeline.ΦA spec1 c : sProp 𝕄)

variable (m : (ℓ : Loc nD τ sig) → Buf (Elt F) ℓ) (ρ : Dev nD → PrngReg)

abbrev B0 : Dev nD → Valuation τ sig (Elt F) := fun c b => (s₀ m ρ).mem ((c : Dev nD), b)
abbrev B1 : Dev nD → Valuation τ sig (Elt F) := fun c => StableHlo.after (hostOps0 (F := F)) (B0 m ρ c)
abbrev T1 : Contents F := fun c b => B1 m ρ c b

variable (H0 : Half0 (T1 m ρ))

def B2 (c : Dev nD) : Valuation τ sig (Elt F) :=
  Pipeline.withArrays spec0 c (B1 m ρ c) fun w => (H0.dat c).arrAt w cfg0.N
theorem B2_arr (c : Dev nD) (w : Fin cfg0.W) :
    B2 m ρ H0 c (Proc.devRef .tc (Pipeline.arrRef spec0 w)) = (H0.dat c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ H0 c (Proc.devRef .tc b) = B1 m ρ c (Proc.devRef .tc b) := by
  unfold B2; exact Pipeline.withArrays_of_ne spec0 c _ _ b hb
abbrev T2 : Contents F := fun c b => B2 m ρ H0 c b
theorem exit0 (c : Dev nD) (w : Fin cfg0.W) : (H0.dat c).arrAt w cfg0.N = T2 m ρ H0 c (Pipeline.arrRef spec0 w) :=
  (B2_arr m ρ H0 c w).symm
theorem rest0 (c : Dev nD) : ∀ b, b ∉ Finset.univ.image (Pipeline.arrRef spec0) → T2 m ρ H0 c b = T1 m ρ c b :=
  fun b hb => B2_of_ne m ρ H0 c b fun w e => hb (Finset.mem_image.mpr ⟨w, Finset.mem_univ _, e⟩)

abbrev B3 : Dev nD → Valuation τ sig (Elt F) := fun c => StableHlo.after (hostOps1 (F := F)) (B2 m ρ H0 c)
abbrev T3 : Contents F := fun c b => B3 m ρ H0 c b

variable (H1 : Half1 (T3 m ρ H0))

def B4 (c : Dev nD) : Valuation τ sig (Elt F) :=
  Pipeline.withArrays spec1 c (B3 m ρ H0 c) fun w => (H1.dat c).arrAt w cfg1.N
theorem B4_arr (c : Dev nD) (w : Fin cfg1.W) :
    B4 m ρ H0 H1 c (Proc.devRef .tc (Pipeline.arrRef spec1 w)) = (H1.dat c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ H0 H1 c (Proc.devRef .tc b) = B3 m ρ H0 c (Proc.devRef .tc b) := by
  unfold B4; exact Pipeline.withArrays_of_ne spec1 c _ _ b hb
abbrev T4 : Contents F := fun c b => B4 m ρ H0 H1 c b
theorem exit1 (c : Dev nD) (w : Fin cfg1.W) : (H1.dat c).arrAt w cfg1.N = T4 m ρ H0 H1 c (Pipeline.arrRef spec1 w) :=
  (B4_arr m ρ H0 H1 c w).symm
theorem rest1 (c : Dev nD) : ∀ b, b ∉ Finset.univ.image (Pipeline.arrRef spec1) → T4 m ρ H0 H1 c b = T3 m ρ H0 c b :=
  fun b hb => B4_of_ne m ρ H0 H1 c b fun w e => hb (Finset.mem_image.mpr ⟨w, Finset.mem_univ _, e⟩)

theorem B4_main_arg0 (c : Dev nD) : B4 m ρ H0 H1 c (Proc.devRef .tc main_arg0) = m ((c : Thread nD τ).loc main_arg0) :=
  calc B4 m ρ H0 H1 c (Proc.devRef .tc main_arg0)
    _ = B3 m ρ H0 c (Proc.devRef .tc main_arg0) := (B4_arr m ρ H0 H1 c 0).trans (((H1.dat c).arrAt_in 0 rfl _).trans (H1.A_eq c 0))
    _ = B2 m ρ H0 c (Proc.devRef .tc main_arg0) := StableHlo.after_of_writes_sub (hostOps1 (F := F)) _ hostOps1_writes (by decide)
    _ = B1 m ρ c (Proc.devRef .tc main_arg0) := (B2_arr m ρ H0 c 0).trans (((H0.dat c).arrAt_in 0 rfl _).trans (H0.A_eq c 0))
    _ = B0 m ρ c (Proc.devRef .tc main_arg0) := StableHlo.after_of_writes_sub (hostOps0 (F := F)) _ hostOps0_writes (by decide)
    _ = m ((c : Thread nD τ).loc main_arg0) := rfl

theorem B4_main_arg1 (c : Dev nD) : B4 m ρ H0 H1 c (Proc.devRef .tc main_arg1) = m ((c : Thread nD τ).loc main_arg1) :=
  calc B4 m ρ H0 H1 c (Proc.devRef .tc main_arg1)
    _ = B3 m ρ H0 c (Proc.devRef .tc main_arg1) := B4_of_ne m ρ H0 H1 c main_arg1 (by decide)
    _ = B2 m ρ H0 c (Proc.devRef .tc main_arg1) := StableHlo.after_of_writes_sub (hostOps1 (F := F)) _ hostOps1_writes (by decide)
    _ = B1 m ρ c (Proc.devRef .tc main_arg1) := B2_of_ne m ρ H0 c main_arg1 (by decide)
    _ = B0 m ρ c (Proc.devRef .tc main_arg1) := StableHlo.after_of_writes_sub (hostOps0 (F := F)) _ hostOps0_writes (by decide)
    _ = m ((c : Thread nD τ).loc main_arg1) := rfl

theorem B4_main_v3 (c : Dev nD) : B4 m ρ H0 H1 c (Proc.devRef .tc main_v3) = (H1.dat c).arrAt 5 cfg1.N :=
  B4_arr m ρ H0 H1 c 5

def pdats : (p : Fin 2) → (c : Dev nD) → Dat τ (Elt F) Unit ℕ (UR sig nD τ) ℕ (Pipeline.pin (pcfgs (F := F)) Gen.adm p) c
  | ⟨0, _⟩ => fun c => H0.dat c
  | ⟨1, _⟩ => fun c => H1.dat c

abbrev 𝒱₀ : Variants := Variants.none
abbrev Lv : GSem nD τ sig → Finset Unit := fun _ => ∅
abbrev lvl : GSem nD τ sig → Unit → ℕ := fun _ _ => 0
abbrev Rest (c : Dev nD) : sProp 𝕄 := iprop((∃ r, prngReg c r) ∗ ∃ W, owes (c : Thread nD τ) (0 : CellTallies nD τ sig Unit) W)

abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (B4 m ρ H0 H1 c) ∗ ∃ r, prngReg c r)

set_option backward.isDefEq.respectTransparency.types false in
def reg0 : Pipeline.RegionSeg (pcfgs (F := F)) Gen.adm (pdats m ρ H0 H1) () defs₀ 𝒱₀ Lv lvl 0 where
  win := launch0.win.to₀
  block_pos := launch0.block_pos
  stage_whole := launch0.stage_whole
  K := PEmpty
  osem k := k.elim
  ho := Pipeline.OwnSemFacts.none _
  hbody c := (H0.body c).loose
  hwaits := Pipeline.hwaits_of_owed_zero _ _ _ _ Lv lvl 0 fun c t => H0.owed_eq c t
  pre c := iprop(StableHlo.held (c : Thread nD τ) (Pipeline.ucRefs τ sig) (B1 m ρ c) ∗ Rest c)
  post c := iprop(StableHlo.held (c : Thread nD τ) (Pipeline.ucRefs τ sig) (B2 m ρ H0 c) ∗ Rest c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) Gen.adm (pdats m ρ H0 H1) launch0.win launch0.arr_whole c
      ((pdats m ρ H0 H1 0 c).share_full fun w => H0.q_eq c w) (T1 m ρ c) fun w => H0.A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ H0 H1 0 c).owed 0 = 0 from H0.owed_eq c 0]
      icases HO with ⟨%W, HO⟩; iexists W; isplitr; · ipureintro; exact fun _ _ => Or.inl ((H0.rec_eq c 0).symm ▸ Set.mem_univ _)
      iexact HO
    isplitl [Hp]; · iexact Hp
    iexact Hrest
  hin c := by
    refine (?_ : _ ⊢ (Pipeline.ΦA spec0 c : sProp 𝕄)).trans (H0.hin c)
    unfold Pipeline.ΦA
    iintro ⟨Hp, -, Hr⟩
    isplitl [Hr]; · iexact Hr
    iexact Hp
  hout c := by
    rw [Pipeline.ownSems0_none]
    refine (H0.hout c).trans (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ H0 H1) ((pdats m ρ H0 H1 0 c).share_full fun w => H0.q_eq c w)
      (T1 m ρ c) (T2 m ρ H0 c) ((pdats m ρ H0 H1 0 c).arrAt · cfg0.N) (exit0 m ρ H0 c) (rest0 m ρ H0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ H0 H1 0 c).owed (Fin.last _) = 0 from H0.owed_eq c _]
    icases HO with ⟨%W, -, HO⟩; iexists W; iexact HO

set_option backward.isDefEq.respectTransparency.types false in
def reg1 : Pipeline.RegionSeg (pcfgs (F := F)) Gen.adm (pdats m ρ H0 H1) () defs₀ 𝒱₀ Lv lvl 1 where
  win := launch1.win.to₀
  block_pos := launch1.block_pos
  stage_whole := launch1.stage_whole
  K := PEmpty
  osem k := k.elim
  ho := Pipeline.OwnSemFacts.none _
  hbody c := (H1.body c).loose
  hwaits := Pipeline.hwaits_of_owed_zero _ _ _ _ Lv lvl 1 fun c t => H1.owed_eq c t
  pre c := iprop(StableHlo.held (c : Thread nD τ) (Pipeline.ucRefs τ sig) (B3 m ρ H0 c) ∗ Rest c)
  post c := iprop(Tend m ρ H0 H1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (T3 m ρ H0 c)
  hentry c := by
    rw [Pipeline.ownSems0_none]
    have hsplit := Pipeline.arrays_of_unscopedBufs (p := 1) (pcfgs (F := F)) Gen.adm (pdats m ρ H0 H1) launch1.win launch1.arr_whole c
      ((pdats m ρ H0 H1 1 c).share_full fun w => H1.q_eq c w) (T3 m ρ H0 c) fun w => H1.A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ H0 H1 1 c).owed 0 = 0 from H1.owed_eq c 0]
      icases HO with ⟨%W, HO⟩; iexists W; isplitr; · ipureintro; exact fun _ _ => Or.inl ((H1.rec_eq c 0).symm ▸ Set.mem_univ _)
      iexact HO
    isplitl [Hp]; · iexact Hp
    iexact Hrest
  hin c := by
    refine (?_ : _ ⊢ (Pipeline.ΦA spec1 c : sProp 𝕄)).trans (H1.hin c)
    unfold Pipeline.ΦA
    iintro ⟨Hp, -, Hr⟩
    isplitl [Hr]; · iexact Hr
    iexact Hp
  hout c := by
    rw [Pipeline.ownSems0_none]
    refine (H1.hout c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m ρ H0 H1) ((pdats m ρ H0 H1 1 c).share_full fun w => H1.q_eq c w)
      (T3 m ρ H0 c) (T4 m ρ H0 H1 c) ((pdats m ρ H0 H1 1 c).arrAt · cfg1.N) (exit1 m ρ H0 H1 c) (rest1 m ρ H0 H1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ H0 H1 1 c).owed (Fin.last _) = 0 from H1.owed_eq c _]
    icases HO with ⟨%W, -, HO⟩; iexists W; iexact HO

abbrev items : List (Pipeline.Seg (pcfgs (F := F)) Gen.adm (pdats m ρ H0 H1) () defs₀ 𝒱₀ Lv lvl) :=
  [ .host (hostItem (hostOps0 (F := F)) hostOps0_sub hostOps0_fresh (B0 m ρ)),
    .region (reg0 m ρ H0 H1),
    .host (hostItem (hostOps1 (F := F)) hostOps1_sub hostOps1_fresh (B2 m ρ H0)),
    .region (reg1 m ρ H0 H1) ]

theorem main_run (c : Dev nD) : main (F := F) c = Pipeline.Seg.run (items m ρ H0 H1) := (main_chain c).trans (by chain_rfl)

set_option backward.isDefEq.respectTransparency.types false in
theorem run_main : θ_run defs (onTc (τ := τ) (main (F := F))) ⟨m, fun _ => 0, ρ⟩ (fun r => ∀ c : Dev nD,
      r.2.mem ((c.tc : Thread nD τ).loc main_v3) = (H1.dat c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) Gen.adm (pdats m ρ H0 H1) () cellOf_inj emb₁ defs₀ 𝒱₀ Lv lvl m ρ main (items m ρ H0 H1)
    (fun c Q => by rw [main_run m ρ H0 H1 c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Tend m ρ H0 H1)
    (hch := ⟨fun _ => .rfl, fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ H0 H1 c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ H0 H1 c) s')
      isplitl [Hh] <;> iassumption)
    (hQ := fun s h c =>
      ⟨(h c _ (mem_uc main_v3 (by decide))).trans (B4_main_v3 m ρ H0 H1 c),
       (h c _ (mem_uc main_arg0 (by decide))).trans (B4_main_arg0 m ρ H0 H1 c),
       (h c _ (mem_uc main_arg1 (by decide))).trans (B4_main_arg1 m ρ H0 H1 c)⟩)

end Cert.Kernel.Hand

end
-- ==== Proof.WordR0Dat.lean ====
/- The first pallas_call's proof data: the similarity tile of a point, and the row sums running along a grid row. -/
import proofs.«405954_j50337016709322_3_alg».proof.Proof.Gen.Kernel.Launch
import proofs.«405954_j50337016709322_3_alg».proof.Proof.Gen.Kernel.Skeleton
import proofs.«405954_j50337016709322_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev simAt0 (c : Dev nD) (t : Fin cfg0.N) : Vec F S1024x1024 .f32 :=
  k0_pay3 (grid0.coords t) (iblk0 V c 0 t) (iblk0 V c 1 t)

def rowAt0 (c : Dev nD) : (n : ℕ) → n < cfg0.N → Vec F S1024x1 .f32
  | 0, hn => k0_pay1 (simAt0 V c ⟨0, hn⟩) (k0_pay4 (F := F))
  | n + 1, hn =>
    if (n + 1) % 8 = 0 then k0_pay1 (simAt0 V c ⟨n + 1, hn⟩) (k0_pay4 (F := F))
    else k0_pay1 (simAt0 V c ⟨n + 1, hn⟩) (rowAt0 c n (Nat.lt_of_succ_lt hn))

theorem rowAt0_first (c : Dev nD) (t : Fin cfg0.N) (h : t.val % 8 = 0) :
    rowAt0 V c t.val t.isLt = k0_pay1 (simAt0 V c t) (k0_pay4 (F := F)) := by
  obtain ⟨n, hn⟩ := t
  cases n with
  | zero => rfl
  | succ n => exact (if_pos h).trans rfl

theorem rowAt0_next (c : Dev nD) (t : Fin cfg0.N) (h : ¬ t.val % 8 = 0) :
    rowAt0 V c t.val t.isLt = k0_pay1 (simAt0 V c t) (rowAt0 V c (t.val - 1) (Nat.lt_of_le_of_lt (Nat.sub_le _ _) t.isLt)) := by
  obtain ⟨n, hn⟩ := t
  cases n with
  | zero => exact absurd (Nat.zero_mod _) h
  | succ n => exact (if_neg h).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => simAt0 V c t
    | ⟨3, _⟩ => rowAt0 V c t.val t.isLt
    | ⟨4, _⟩ => k0_pay2 (simAt0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay3 (grid0.coords t) (iblk0 V c 0 t) (iblk0 V c 1 t) := by dsimp only [dat0]
theorem after0_3 (c : Dev nD) (t : Fin cfg0.N) : (dat0 V c).after 3 t = rowAt0 V c t.val t.isLt := by dsimp only [dat0]
theorem after0_4 (c : Dev nD) (t : Fin cfg0.N) :
    (dat0 V c).after 4 t = k0_pay2 (k0_pay3 (grid0.coords t) (iblk0 V c 0 t) (iblk0 V c 1 t)) := by dsimp only [dat0]

end Region0

end Cert.Kernel.Hand

end
-- ==== Proof.WordStores.lean ====
/- Whole buffers: what one reads after its last whole store, what a whole load of one reads, and when a run leaves one owned at a value. -/
import proofs.«405954_j50337016709322_3_alg».proof.Proof.Gen.Kernel.Launch
import proofs.«405954_j50337016709322_3_alg».proof.Proof.Gen.Kernel.Skeleton
import proofs.«405954_j50337016709322_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The last store covers every index, so the buffer reads as its payload. -/
theorem read_last {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

section
variable {S : Shape} {e : EltTy} (c : Dev nD) {a : Memref sig .tc .vmem S e}

/-- A whole buffer left as found is owned at what it held. -/
theorem kept (ha : a.IsWhole) (x : S.Idx → Elt F e) :
    (iprop(a.view.loc (c : Thread nD τ) ↦[a.view.set]{fullShare} ha.unread x) : sProp 𝕄)
      ⊢ iprop(∃ f, ⌜a.view.read (Elt F) f = x⌝ ∗ (a.view.loc (c : Thread nD τ) ↦[a.view.set]{fullShare} f)) := by
  iintro H; iexists _; isplitr; · ipureintro; exact ha.read_unread _
  iexact H

/-- A buffer whose last store filled it whole is owned at that store's payload. -/
theorem stored {f : a.view.ty.Contents (Elt F)} {off : Fin S.rank → Nat} (h : off = fun _ => 0)
    {inb : ∀ a, off a + S.size a ≤ S.size a} {w x : S.Idx → Elt F e} {L : List (View.Piece (Elt F) S e)} (hx : w = x) :
    (iprop(a.view.loc (c : Thread nD τ) ↦[a.view.set]{fullShare} a.view.writes (Elt F) f ((⟨Rect.unit off S.size inb, w⟩ : View.Piece (Elt F) S e) :: L)) : sProp 𝕄)
      ⊢ iprop(∃ f, ⌜a.view.read (Elt F) f = x⌝ ∗ (a.view.loc (c : Thread nD τ) ↦[a.view.set]{fullShare} f)) := by
  iintro H; iexists _; isplitr; · ipureintro; exact (read_last a.view f h inb w L).trans hx
  iexact H

end

section
variable {Val : EltTy → Type} [∀ e, Nonempty (Val e)] {e : EltTy}

theorem ld512 (inb) (X : S1024x512.Idx → Val e) : View.ld X (Rect.unit (s := S1024x512) ![0, 0] ![1024, 512] inb) = X := View.ld_unit_zero hz2 inb X
theorem ld1024 (inb) (X : S1024x1024.Idx → Val e) : View.ld X (Rect.unit (s := S1024x1024) ![0, 0] ![1024, 1024] inb) = X := View.ld_unit_zero hz2 inb X
theorem rc1 {sig' : RefSig} {κ : Kind} {sp : Space} (v : View sig' κ sp S1024x1 e) (inb) (w : S1024x1.Idx → Val e) :
    v.readCov [(⟨Rect.unit (s := S1024x1) ![0, 0] ![1024, 1] inb, w⟩ : View.Piece Val S1024x1 e)] (Rect.unit (s := S1024x1) ![0, 0] ![1024, 1] inb).toLoadRect = w := View.readCov_unit_zero v hz2 inb w
theorem rc512 {sig' : RefSig} {κ : Kind} {sp : Space} (v : View sig' κ sp S1024x512 e) (inb) (w : S1024x512.Idx → Val e) :
    v.readCov [(⟨Rect.unit (s := S1024x512) ![0, 0] ![1024, 512] inb, w⟩ : View.Piece Val S1024x512 e)] (Rect.unit (s := S1024x512) ![0, 0] ![1024, 512] inb).toLoadRect = w := View.readCov_unit_zero v hz2 inb w
theorem ld1 (inb) (X : S1024x1.Idx → Val e) : View.ld X (Rect.unit (s := S1024x1) ![0, 0] ![1024, 1] inb) = X := View.ld_unit_zero hz2 inb X

end

end Cert.Kernel.Hand

end
-- ==== Proof.WordR0Run.lean ====
/- The first pallas_call's body at a point: the similarity tile, its column sums, and its row sums added to zeros where a grid row begins and to the running sums elsewhere. -/
import proofs.«405954_j50337016709322_3_alg».proof.Proof.WordStores

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

section
variable (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1x1024 .f32) (harg6 : arg6.IsWhole)
  (x0 x1 : Vec F S1024x512 .f32)

set_option maxHeartbeats 1000000 in
theorem run0 (xo3 : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xo3 ∗ (∃ d, owns (c : Thread nD τ) arg6 fullShare d)
        ∗ (iprop(owns (c : Thread nD τ) arg2 fullShare x0 ∗ owns (c : Thread nD τ) arg3 fullShare x1 ∗ owns (c : Thread nD τ) arg4 fullShare (k0_pay3 i x0 x1)
            ∗ owns (c : Thread nD τ) arg5 fullShare (k0_pay1 (k0_pay3 i x0 x1) (if cond0_0 i then k0_pay4 (F := F) else xo3))
            ∗ owns (c : Thread nD τ) arg6 fullShare (k0_pay2 (k0_pay3 i x0 x1))) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  simp only [k0_part1_eq_skeleton]
  unfold owns
  by_cases hc0 : cond0_0 i <;> [rw [if_pos hc0]; rw [if_neg hc0]]
  all_goals
    iintro ⟨⟨%f0, %hf0, H0⟩, ⟨%f1, %hf1, H1⟩, ⟨%d2, %f2, -, H2⟩, ⟨%f3, %hf3, H3⟩, ⟨%d4, %f4, -, H4⟩, Hk⟩
    obtain rfl := harg2.eq_unread hf0; obtain rfl := harg3.eq_unread hf1; obtain rfl := harg5.eq_unread hf3
    sl_exec (disch := first | exact hc0)
    sl_step
    iapply Hk
    isplitl [H0]; · iapply kept c harg2; iexact H0
    isplitl [H1]; · iapply kept c harg3; iexact H1
    isplitl [H2]
    · iapply stored c hz2 ?_
      swap; · iexact H2
      sl_unfold_words
      simp only [View.readAt_eq_ld, Memref.IsWhole.read_unread, ld512, ld1, rc1]
      try rfl
    isplitl [H3]
    · iapply stored c hz2 ?_
      swap; · iexact H3
      sl_unfold_words
      simp only [View.readAt_eq_ld, Memref.IsWhole.read_unread, ld512, ld1, rc1]
      try rfl
    iapply stored c hz3 ?_
    swap; · iexact H4
    sl_unfold_words
    simp only [View.readAt_eq_ld, Memref.IsWhole.read_unread, ld512, ld1, rc1]
    try rfl

end

end Cert.Kernel.Hand

end
-- ==== Proof.WordR0Frame.lean ====
/- The first pallas_call's body obligation at every point. -/
import proofs.«405954_j50337016709322_3_alg».proof.Proof.WordR0Dat
import proofs.«405954_j50337016709322_3_alg».proof.Proof.WordR0Run

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_3_next (c : Dev nD) (t : Fin cfg0.N) (h0 : ¬t.val % 8 = 0) (d) :
    (dat0 V c).before 3 t d = rowAt0 V c (t.val - 1) (Nat.lt_of_le_of_lt (Nat.sub_le _ _) t.isLt) := by
  have hN : t.val < 32 := lt_of_lt_of_eq t.isLt (show cfg0.N = 32 from N_0)
  rw [Dat.before_out_kept _ 3 rfl t (by omega)
    (Bool.eq_false_iff.mpr fun h => by have := (flush0_3 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  have hrow : k0_pay1 (simAt0 V c t) (if cond0_0 (grid0.coords t) then k0_pay4 (F := F) else (dat0 V c).before 3 t d3)
      = rowAt0 V c t.val t.isLt := by
    by_cases h0 : t.val % 8 = 0
    · rw [if_pos ((hcond0_0 t).mpr h0), rowAt0_first V c t h0]
    · rw [if_neg fun h => h0 ((hcond0_0 t).mp h), before0_3_next V c t h0, rowAt0_next V c t h0]
  rw [← hrow]
  iapply (run0 c (grid0.coords t) _ _ _ _ _ _ _ _ _ _ (iblk0 V c 0 t) (iblk0 V c 1 t) ((dat0 V c).before 3 t d3) Set.univ _)
  isplitl [H0]; · iexact H0
  isplitl [H1]; · iexact H1
  isplitl [H2]; · iexists _; iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.WordHalf0Inst.lean ====
import proofs.«405954_j50337016709322_3_alg».proof.Proof.WordAssembly
import proofs.«405954_j50337016709322_3_alg».proof.Proof.WordR0Frame

noncomputable section

namespace Cert.Kernel.Hand

open Cert.Kernel Cert.Kernel.Gen
open Idealize.ShloMosaic Idealize.ShloMosaic.TcCoe
open Idealize.SL Idealize.SL.BI
open scoped Idealize.SL.BI
open Idealize.SL.Sem
open Idealize.ShloMosaic.Pipeline (Dat BodyObligation)

variable {F : FTy → Type} [FloatOps F]

def half0 (V : Contents F) : Half0 V where
  dat := dat0 V
  A_eq := A_eq0 V
  q_eq := fun _ _ => by dsimp only [dat0]
  owed_eq := fun _ _ => by dsimp only [dat0]
  rec_eq := fun _ _ => by dsimp only [dat0]
  body := body_obligation0 V
  hin := fun c => by dsimp only [dat0]; exact BI.Entails.refl _
  hout := fun c => by dsimp only [dat0]; exact BI.Entails.refl _

end Cert.Kernel.Hand

end
-- ==== Proof.WordR1Base.lean ====
/- The second pallas_call: its branch conditions over the 4 x 8 grid, the buffers its body is called with, and its invariant's resources. -/
import proofs.«405954_j50337016709322_3_alg».proof.Proof.WordStores

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The five input windows are live at every point. -/
theorem liveAt1 : ∀ w : Fin cfg1.W, w.val < 5 → ∀ t : Fin cfg1.N, cfg1.idle w (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8192 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x512 .f32 := Memref.whole cc1_scratch2
abbrev scM1_3 : Memref sig .tc .vmem S1024x512 .f32 := Memref.whole cc1_scratch3

/-- The four accumulators the kernel carries along a grid row. -/
abbrev Acc1 (F : FTy → Type) : Type := Vec F S1024x1 .f32 × Vec F S1024x1 .f32 × Vec F S1024x512 .f32 × Vec F S1024x512 .f32

section Bufs
variable (c : Dev nD) (a0 a1 : Memref sig .tc .vmem S1024x1 .f32) (a2 a3 : Memref sig .tc .vmem S1024x512 .f32)

/-- The accumulator buffers hold `p`. -/
def accs1 (p : Acc1 F) : sProp 𝕄 :=
  iprop(owns (c : Thread nD τ) a0 fullShare p.1 ∗ owns (c : Thread nD τ) a1 fullShare p.2.1 ∗ owns (c : Thread nD τ) a2 fullShare p.2.2.1 ∗ owns (c : Thread nD τ) a3 fullShare p.2.2.2)

/-- The accumulator buffers hold anything. -/
def accsAny1 : sProp 𝕄 :=
  iprop((∃ d, owns (c : Thread nD τ) a0 fullShare d) ∗ (∃ d, owns (c : Thread nD τ) a1 fullShare d) ∗ (∃ d, owns (c : Thread nD τ) a2 fullShare d) ∗ (∃ d, owns (c : Thread nD τ) a3 fullShare d))

theorem accs1_any (p : Acc1 F) : accs1 c a0 a1 a2 a3 p ⊢ accsAny1 (F := F) c a0 a1 a2 a3 := by
  unfold accs1 accsAny1
  iintro ⟨H0, H1, H2, H3⟩
  isplitl [H0]; · iexists _; iexact H0
  isplitl [H1]; · iexists _; iexact H1
  isplitl [H2]; · iexists _; iexact H2
  iexists _; iexact H3

/-- The six windows' buffers hold the point's blocks. -/
def ins1 (m0 m1 : Memref sig .tc .vmem S1024x512 .f32) (m2 : Memref sig .tc .vmem S1024x1024 .f32) (m3 : Memref sig .tc .vmem S1024x1 .f32) (m4 : Memref sig .tc .vmem S1x8192 .f32) (m5 : Memref sig .tc .vmem S1024x512 .f32)
    (x0 x1 : Vec F S1024x512 .f32) (x2 : Vec F S1024x1024 .f32) (x3 : Vec F S1024x1 .f32) (x4 : Vec F S1x8192 .f32) (x5 : Vec F S1024x512 .f32) : sProp 𝕄 :=
  iprop(owns (c : Thread nD τ) m0 fullShare x0 ∗ owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5)

end Bufs

/-- The first pallas_call's buffers, which this one never touches, each at some contents, beside `P`. -/
def stgRest1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ P)

theorem PhiA1_eq (c : Dev nD) :
    (Pipeline.ΦA spec1 c : sProp 𝕄)
      = iprop(stgRest1 (F := F) c (accsAny1 c scM1_0 scM1_1 scM1_2 scM1_3) ∗ (∃ r, prngReg c r)) := by
  unfold Pipeline.ΦA stgRest1 accsAny1; rw [scopedRest1_eq]; simp only [scM1_0, scM1_1, scM1_2, scM1_3, owns_whole]; try rfl

end Cert.Kernel.Hand

end
-- ==== Proof.WordR1Dat.lean ====
/- The second pallas_call: the accumulators' contents point by point, the invariant that carries them, and the pipeline's proof data. -/
import proofs.«405954_j50337016709322_3_alg».proof.Proof.WordR1Base

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev csRect1 (i : grid1.Coords) : Rect S1x8192 := Rect.unit (s := S1x8192) (k1_off1 i) S1x1024.size (k1_off1_inb i)

def scZero1 : Acc1 F :=
  (k1_pay9, k1_pay10, k1_pay11, k1_pay12)

/-- One point's update of the accumulators from the point's blocks. -/
def scStep1 (i : grid1.Coords) (x1 : Vec F S1024x512 .f32) (x2 : Vec F S1024x1024 .f32) (x3 : Vec F S1024x1 .f32) (cs : Vec F S1x1024 .f32)
    (p : Acc1 F) : Acc1 F :=
  (k1_pay13 i x2 x3 cs p.1, k1_pay1 (k1_pay14 i x2 x3 cs p.2.1),
   k1_pay3 (k1_pay6 x1) (k1_pay7 x2 x3 cs) (Scalar.cmpi .slt (BitVec.ofNat 32 (i 1).val) 4#32) p.2.2.1,
   k1_pay4 (k1_pay6 x1) (k1_pay7 x2 x3 cs) (Scalar.cmpi .slt (BitVec.ofNat 32 (i 1).val) 4#32) p.2.2.2)

def scStepAt1 (c : Dev nD) (t : Fin cfg1.N) (p : Acc1 F) : Acc1 F :=
  scStep1 (grid1.coords t) (iblk1 V c 1 t) (iblk1 V c 2 t) (iblk1 V c 3 t) (View.ld (iblk1 V c 4 t) (csRect1 (grid1.coords t))) p

/-- The accumulators after the point at position `n`: reset where a grid row begins. -/
def scAt1 (c : Dev nD) : (n : ℕ) → n < cfg1.N → Acc1 F
  | 0, hn => scStepAt1 V c ⟨0, hn⟩ scZero1
  | n + 1, hn => scStepAt1 V c ⟨n + 1, hn⟩ (if (n + 1) % 8 = 0 then scZero1 else scAt1 c n (Nat.lt_of_succ_lt hn))

theorem scAt1_first (c : Dev nD) (t : Fin cfg1.N) (h : t.val % 8 = 0) :
    scAt1 V c t.val t.isLt = scStepAt1 V c t scZero1 := by
  obtain ⟨n, hn⟩ := t
  cases n with
  | zero => rfl
  | succ n => exact congrArg (scStepAt1 V c ⟨n + 1, hn⟩) (if_pos h)

theorem scAt1_next (c : Dev nD) (t : Fin cfg1.N) (h : ¬t.val % 8 = 0) :
    scAt1 V c t.val t.isLt = scStepAt1 V c t (scAt1 V c (t.val - 1) (Nat.lt_of_le_of_lt (Nat.sub_le _ _) t.isLt)) := by
  obtain ⟨n, hn⟩ := t
  cases n with
  | zero => exact absurd (Nat.zero_mod _) h
  | succ n => exact congrArg (scStepAt1 V c ⟨n + 1, hn⟩) (if_neg h)

def out1_5 (p : Acc1 F) : Vec F S1024x512 .f32 :=
  k1_pay5 p.1 p.2.2.1 p.2.1 p.2.2.2

/-- Before position `n` the accumulators hold what position `n - 1` left. -/
def PhiS1 (c : Dev nD) : (n : ℕ) → n ≤ cfg1.N → sProp 𝕄
  | 0, _ => Pipeline.ΦA spec1 c
  | n + 1, hn => iprop(stgRest1 (F := F) c (accs1 c scM1_0 scM1_1 scM1_2 scM1_3 (scAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(stgRest1 (F := F) c (accs1 c scM1_0 scM1_1 scM1_2 scM1_3 (scAt1 V c n hn)) ∗ (∃ r, prngReg c r)) := rfl

theorem PhiS1_pos (c : Dev nD) (n : ℕ) (h : n ≤ cfg1.N) (hz : n ≠ 0) :
    PhiS1 V c n h = iprop(stgRest1 (F := F) c (accs1 c scM1_0 scM1_1 scM1_2 scM1_3 (scAt1 V c (n - 1) (by omega))) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (scAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (scAt1 V c t.val t.isLt) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

end Region

end Cert.Kernel.Hand

end
-- ==== Proof.WordR1RunA.lean ====
/- The second kernel's body where a grid row begins: the accumulators are zeroed, then updated. -/
import proofs.«405954_j50337016709322_3_alg».proof.Proof.WordR1Dat

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
section
variable (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x512 .f32) (harg10 : arg10.IsWhole) (arg11 : Memref sig .tc .vmem S1024x512 .f32) (harg11 : arg11.IsWhole)
  (x0 x1 : Vec F S1024x512 .f32) (x2 : Vec F S1024x1024 .f32) (x3 : Vec F S1024x1 .f32) (x4 : Vec F S1x8192 .f32)

set_option maxHeartbeats 1000000 in
theorem run1_A (hc0 : cond1_0 i) (hc1 : ¬cond1_1 i) (x5 : Vec F S1024x512 .f32) (E : Set ℕ) (K : PUnit → sProp 𝕄) :
    iprop((ins1 c arg2 arg3 arg4 arg5 arg6 arg7 x0 x1 x2 x3 x4 x5 ∗ accsAny1 c arg8 arg9 arg10 arg11) ∗ ((ins1 c arg2 arg3 arg4 arg5 arg6 arg7 x0 x1 x2 x3 x4 x5 ∗ accs1 c arg8 arg9 arg10 arg11 (scStep1 i x1 x2 x3 (View.ld x4 (csRect1 i)) scZero1)) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
  simp only [cc1_kernel_eq_skeleton]; unfold cc1_kernel_skel
  simp only [k1_part1_eq_skeleton]
  unfold ins1 accs1 accsAny1 owns
  iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%ds0, %fs0, -, HS0⟩, ⟨%ds1, %fs1, -, HS1⟩, ⟨%ds2, %fs2, -, HS2⟩, ⟨%ds3, %fs3, -, HS3⟩⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitr [HS0 HS1 HS2 HS3]
  · isplitl [H0]; · iapply kept c harg2; iexact H0
    isplitl [H1]; · iapply kept c harg3; iexact H1
    isplitl [H2]; · iapply kept c harg4; iexact H2
    isplitl [H3]; · iapply kept c harg5; iexact H3
    isplitl [H4]; · iapply kept c harg6; iexact H4
    iapply kept c harg7; iexact H5
  isplitl [HS0]
  · iapply stored c hz2 ?_
    swap; · iexact HS0
    sl_unfold_words
    simp only [View.readAt_eq_ld, Memref.IsWhole.read_unread, ld512, ld1024, ld1, rc1, rc512]
    try rfl
  isplitl [HS1]
  · iapply stored c hz2 ?_
    swap; · iexact HS1
    sl_unfold_words
    simp only [View.readAt_eq_ld, Memref.IsWhole.read_unread, ld512, ld1024, ld1, rc1, rc512]
    try rfl
  isplitl [HS2]
  · iapply stored c hz2 ?_
    swap; · iexact HS2
    sl_unfold_words
    simp only [View.readAt_eq_ld, Memref.IsWhole.read_unread, ld512, ld1024, ld1, rc1, rc512]
    try rfl
  iapply stored c hz2 ?_
  swap; · iexact HS3
  sl_unfold_words
  simp only [View.readAt_eq_ld, Memref.IsWhole.read_unread, ld512, ld1024, ld1, rc1, rc512]
  try rfl

end

end Cert.Kernel.Hand

end
-- ==== Proof.WordR1RunB.lean ====
/- The second kernel's body inside a grid row: the accumulators are updated. -/
import proofs.«405954_j50337016709322_3_alg».proof.Proof.WordR1Dat

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
section
variable (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x512 .f32) (harg10 : arg10.IsWhole) (arg11 : Memref sig .tc .vmem S1024x512 .f32) (harg11 : arg11.IsWhole)
  (x0 x1 : Vec F S1024x512 .f32) (x2 : Vec F S1024x1024 .f32) (x3 : Vec F S1024x1 .f32) (x4 : Vec F S1x8192 .f32)

set_option maxHeartbeats 1000000 in
theorem run1_B (hc0 : ¬cond1_0 i) (hc1 : ¬cond1_1 i) (x5 : Vec F S1024x512 .f32) (p : Acc1 F) (E : Set ℕ) (K : PUnit → sProp 𝕄) :
    iprop((ins1 c arg2 arg3 arg4 arg5 arg6 arg7 x0 x1 x2 x3 x4 x5 ∗ accs1 c arg8 arg9 arg10 arg11 p) ∗ ((ins1 c arg2 arg3 arg4 arg5 arg6 arg7 x0 x1 x2 x3 x4 x5 ∗ accs1 c arg8 arg9 arg10 arg11 (scStep1 i x1 x2 x3 (View.ld x4 (csRect1 i)) p)) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
  simp only [cc1_kernel_eq_skeleton]; unfold cc1_kernel_skel
  simp only [k1_part1_eq_skeleton]
  unfold ins1 accs1 owns
  iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%fs0, %hfs0, HS0⟩, ⟨%fs1, %hfs1, HS1⟩, ⟨%fs2, %hfs2, HS2⟩, ⟨%fs3, %hfs3, HS3⟩⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs0; obtain rfl := harg9.eq_unread hfs1; obtain rfl := harg10.eq_unread hfs2; obtain rfl := harg11.eq_unread hfs3
  sl_exec (disch := first | exact hc0 | exact hc1)
  sl_step
  iapply Hk
  isplitr [HS0 HS1 HS2 HS3]
  · isplitl [H0]; · iapply kept c harg2; iexact H0
    isplitl [H1]; · iapply kept c harg3; iexact H1
    isplitl [H2]; · iapply kept c harg4; iexact H2
    isplitl [H3]; · iapply kept c harg5; iexact H3
    isplitl [H4]; · iapply kept c harg6; iexact H4
    iapply kept c harg7; iexact H5
  isplitl [HS0]
  · iapply stored c hz2 ?_
    swap; · iexact HS0
    sl_unfold_words
    simp only [View.readAt_eq_ld, Memref.IsWhole.read_unread, ld512, ld1024, ld1, rc1, rc512]
    try rfl
  isplitl [HS1]
  · iapply stored c hz2 ?_
    swap; · iexact HS1
    sl_unfold_words
    simp only [View.readAt_eq_ld, Memref.IsWhole.read_unread, ld512, ld1024, ld1, rc1, rc512]
    try rfl
  isplitl [HS2]
  · iapply stored c hz2 ?_
    swap; · iexact HS2
    sl_unfold_words
    simp only [View.readAt_eq_ld, Memref.IsWhole.read_unread, ld512, ld1024, ld1, rc1, rc512]
    try rfl
  iapply stored c hz2 ?_
  swap; · iexact HS3
  sl_unfold_words
  simp only [View.readAt_eq_ld, Memref.IsWhole.read_unread, ld512, ld1024, ld1, rc1, rc512]
  try rfl

end

end Cert.Kernel.Hand

end
-- ==== Proof.WordR1RunC.lean ====
/- The second kernel's body where a grid row ends: the accumulators are updated, then combined into the output block. -/
import proofs.«405954_j50337016709322_3_alg».proof.Proof.WordR1Dat

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
section
variable (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x512 .f32) (harg10 : arg10.IsWhole) (arg11 : Memref sig .tc .vmem S1024x512 .f32) (harg11 : arg11.IsWhole)
  (x0 x1 : Vec F S1024x512 .f32) (x2 : Vec F S1024x1024 .f32) (x3 : Vec F S1024x1 .f32) (x4 : Vec F S1x8192 .f32)

set_option maxHeartbeats 1000000 in
theorem run1_C (hc0 : ¬cond1_0 i) (hc1 : cond1_1 i) (x5 : Vec F S1024x512 .f32) (p : Acc1 F) (E : Set ℕ) (K : PUnit → sProp 𝕄) :
    iprop((ins1 c arg2 arg3 arg4 arg5 arg6 arg7 x0 x1 x2 x3 x4 x5 ∗ accs1 c arg8 arg9 arg10 arg11 p) ∗ ((ins1 c arg2 arg3 arg4 arg5 arg6 arg7 x0 x1 x2 x3 x4 (out1_5 (scStep1 i x1 x2 x3 (View.ld x4 (csRect1 i)) p)) ∗ accs1 c arg8 arg9 arg10 arg11 (scStep1 i x1 x2 x3 (View.ld x4 (csRect1 i)) p)) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
  simp only [cc1_kernel_eq_skeleton]; unfold cc1_kernel_skel
  simp only [k1_part1_eq_skeleton]
  unfold ins1 accs1 owns
  iintro ⟨⟨⟨⟨%f0, %hf0, H0⟩, ⟨%f1, %hf1, H1⟩, ⟨%f2, %hf2, H2⟩, ⟨%f3, %hf3, H3⟩, ⟨%f4, %hf4, H4⟩, ⟨%f5, -, H5⟩⟩, ⟨⟨%fs0, %hfs0, HS0⟩, ⟨%fs1, %hfs1, HS1⟩, ⟨%fs2, %hfs2, HS2⟩, ⟨%fs3, %hfs3, HS3⟩⟩⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs0; obtain rfl := harg9.eq_unread hfs1; obtain rfl := harg10.eq_unread hfs2; obtain rfl := harg11.eq_unread hfs3
  sl_exec (disch := first | exact hc0 | exact hc1)
  sl_step
  iapply Hk
  isplitr [HS0 HS1 HS2 HS3]
  · isplitl [H0]; · iapply kept c harg2; iexact H0
    isplitl [H1]; · iapply kept c harg3; iexact H1
    isplitl [H2]; · iapply kept c harg4; iexact H2
    isplitl [H3]; · iapply kept c harg5; iexact H3
    isplitl [H4]; · iapply kept c harg6; iexact H4
    iapply stored c hz2 ?_
    swap; · iexact H5
    sl_unfold_words
    simp only [View.readAt_eq_ld, Memref.IsWhole.read_unread, ld512, ld1024, ld1, rc1, rc512]
    try rfl
  isplitl [HS0]
  · iapply stored c hz2 ?_
    swap; · iexact HS0
    sl_unfold_words
    simp only [View.readAt_eq_ld, Memref.IsWhole.read_unread, ld512, ld1024, ld1, rc1, rc512]
    try rfl
  isplitl [HS1]
  · iapply stored c hz2 ?_
    swap; · iexact HS1
    sl_unfold_words
    simp only [View.readAt_eq_ld, Memref.IsWhole.read_unread, ld512, ld1024, ld1, rc1, rc512]
    try rfl
  isplitl [HS2]
  · iapply stored c hz2 ?_
    swap; · iexact HS2
    sl_unfold_words
    simp only [View.readAt_eq_ld, Memref.IsWhole.read_unread, ld512, ld1024, ld1, rc1, rc512]
    try rfl
  iapply stored c hz2 ?_
  swap; · iexact HS3
  sl_unfold_words
  simp only [View.readAt_eq_ld, Memref.IsWhole.read_unread, ld512, ld1024, ld1, rc1, rc512]
  try rfl

end

end Cert.Kernel.Hand

end
-- ==== Proof.WordR1Frame.lean ====
/- The second pallas_call's body obligation at every point, and its invariant at the call's two ends. -/
import proofs.«405954_j50337016709322_3_alg».proof.Proof.WordR1RunA
import proofs.«405954_j50337016709322_3_alg».proof.Proof.WordR1RunB
import proofs.«405954_j50337016709322_3_alg».proof.Proof.WordR1RunC

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
section Region
variable (V : (c : Dev nD) → (b : Ref sig .tc) → Buf (Elt F) ((c : Thread nD τ).loc b))

/-- What the six windows' buffers hold before the body at point `t`. -/
def winsBefore1 (c : Dev nD) (t : Fin cfg1.N) : sProp 𝕄 :=
  iprop((∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPre1 (c : Dev nD) (t : Fin cfg1.N) : sProp 𝕄 :=
  iprop((dat1 V c).Φ t.castSucc ∗ (dat1 V c).owesAt () t.castSucc ∗ winsBefore1 V c t)

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- The body obligation at a point from the body's run there: the buffers this call never touches and the rest of the
    invariant ride along, and the output window's buffer ends at `g` of what it held. -/
theorem body1_of_run (c : Dev nD) (t : Fin cfg1.N) (Pacc R Q5 : sProp 𝕄) (g : Vec F S1024x512 .f32 → Vec F S1024x512 .f32) (p' : Acc1 F)
    (hrun : ∀ (x5 : Vec F S1024x512 .f32) (K : PUnit → sProp 𝕄),
      iprop((ins1 c (ms1_0 t) (ms1_1 t) (ms1_2 t) (ms1_3 t) (ms1_4 t) (ms1_5 t) (iblk1 V c 0 t) (iblk1 V c 1 t) (iblk1 V c 2 t) (iblk1 V c 3 t) (iblk1 V c 4 t) x5 ∗ Pacc) ∗ ((ins1 c (ms1_0 t) (ms1_1 t) (ms1_2 t) (ms1_3 t) (ms1_4 t) (ms1_5 t) (iblk1 V c 0 t) (iblk1 V c 1 t) (iblk1 V c 2 t) (iblk1 V c 3 t) (iblk1 V c 4 t) (g x5) ∗ accs1 c scM1_0 scM1_1 scM1_2 scM1_3 p') -∗ K ⟨⟩)) ⊢ wp frame (wpE (defs₀ (F := F)) Variants.none c none) Set.univ (bodyAt1 t) K)
    (hQ : ∀ d, owns (c : Thread nD τ) (ms1_5 t) fullShare (g ((dat1 V c).before 5 t d)) ⊢ Q5) :
    iprop((stgRest1 (F := F) c Pacc ∗ (∃ r, prngReg c r)) ∗ R ∗ winsBefore1 V c t)
      ⊢ wp frame (wpE (defs₀ (F := F)) Variants.none c none) Set.univ (bodyAt1 t) (fun _ => iprop((stgRest1 (F := F) c (accs1 c scM1_0 scM1_1 scM1_2 scM1_3 p') ∗ (∃ r, prngReg c r)) ∗ R
        ∗ owns (c : Thread nD τ) (ms1_0 t) fullShare (iblk1 V c 0 t)
        ∗ owns (c : Thread nD τ) (ms1_1 t) fullShare (iblk1 V c 1 t)
        ∗ owns (c : Thread nD τ) (ms1_2 t) fullShare (iblk1 V c 2 t)
        ∗ owns (c : Thread nD τ) (ms1_3 t) fullShare (iblk1 V c 3 t)
        ∗ owns (c : Thread nD τ) (ms1_4 t) fullShare (iblk1 V c 4 t) ∗ Q5)) := by
  unfold winsBefore1 stgRest1
  simp only [before1_0, before1_1, before1_2, before1_3, before1_4]
  iintro ⟨⟨⟨A0, A1, A2, A3, A4, A5, A6, A7, A8, A9, HS⟩, Hg⟩, Ho, ⟨%d0, H0⟩, ⟨%d1, H1⟩, ⟨%d2, H2⟩, ⟨%d3, H3⟩, ⟨%d4, H4⟩, ⟨%d5, H5⟩⟩
  iapply hrun ((dat1 V c).before 5 t d5) _
  unfold ins1
  isplitl [H0 H1 H2 H3 H4 H5 HS]
  · isplitr [HS]
    · isplitl [H0]; · iexact H0
      isplitl [H1]; · iexact H1
      isplitl [H2]; · iexact H2
      isplitl [H3]; · iexact H3
      isplitl [H4]; · iexact H4
      iexact H5
    iexact HS
  iintro ⟨⟨H0, H1, H2, H3, H4, H5⟩, HS⟩
  isplitl [A0 A1 A2 A3 A4 A5 A6 A7 A8 A9 HS Hg]
  · isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexact HS
    iexact Hg
  isplitl [Ho]; · iexact Ho
  isplitl [H0]; · iexact H0
  isplitl [H1]; · iexact H1
  isplitl [H2]; · iexact H2
  isplitl [H3]; · iexact H3
  isplitl [H4]; · iexact H4
  iapply hQ d5; iexact H5

/-- Whatever the accumulators hold, the invariant gives the call's own. -/
theorem PhiS1_any (c : Dev nD) (n : ℕ) (h : n ≤ cfg1.N) :
    PhiS1 V c n h ⊢ iprop(stgRest1 (F := F) c (accsAny1 c scM1_0 scM1_1 scM1_2 scM1_3) ∗ (∃ r, prngReg c r)) := by
  by_cases hz : n = 0
  · rw [PhiS1_zero V c n h hz, PhiA1_eq]
  rw [PhiS1_pos V c n h hz]
  unfold stgRest1
  iintro ⟨⟨A0, A1, A2, A3, A4, A5, A6, A7, A8, A9, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iapply accs1_any; iexact HS
  iexact Hg

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [show (dat1 V c).owesAt () t.succ = (dat1 V c).owesAt () t.castSucc from rfl,
    show (dat1 V c).Φ t.succ = PhiS1 V c (t.val + 1) t.isLt from rfl, PhiS1_succ, PhiS1_castSucc V c t]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1 0 (by decide) t], after1_0]
  rw [show (dat1 V c).leavesExact 1 t = owns (c : Thread nD τ) (ms1_1 t) fullShare ((dat1 V c).after 1 t) from by
    unfold Dat.leavesExact; rw [liveAt1 1 (by decide) t], after1_1]
  rw [show (dat1 V c).leavesExact 2 t = owns (c : Thread nD τ) (ms1_2 t) fullShare ((dat1 V c).after 2 t) from by
    unfold Dat.leavesExact; rw [liveAt1 2 (by decide) t], after1_2]
  rw [show (dat1 V c).leavesExact 3 t = owns (c : Thread nD τ) (ms1_3 t) fullShare ((dat1 V c).after 3 t) from by
    unfold Dat.leavesExact; rw [liveAt1 3 (by decide) t], after1_3]
  rw [show (dat1 V c).leavesExact 4 t = owns (c : Thread nD τ) (ms1_4 t) fullShare ((dat1 V c).after 4 t) from by
    unfold Dat.leavesExact; rw [liveAt1 4 (by decide) t], after1_4]
  by_cases h0 : t.val % 8 = 0
  · have hc1 : ¬cond1_1 (grid1.coords t) := fun h => by have := (hcond1_1 t).mp h; omega
    rw [Dat.leavesExact_idle (dat1 V c) 5 t (idleAt1_5 t hc1) (noFlush1_5 t hc1), scAt1_first V c t h0]
    exact (sep_mono (PhiS1_any V c _ _) .rfl).trans (body1_of_run V c t _ _ _ id _
      (fun x5 K => run1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) ((hcond1_0 t).mpr h0) hc1 x5 Set.univ K)
      (fun d => by iintro H; iexists d; iexact H))
  have hc0 : ¬cond1_0 (grid1.coords t) := fun h => h0 ((hcond1_0 t).mp h)
  rw [PhiS1_pos V c _ _ (fun h => h0 (by rw [h]))]
  by_cases h1 : t.val % 8 = 7
  · have hc1 : cond1_1 (grid1.coords t) := (hcond1_1 t).mpr h1
    rw [show (dat1 V c).leavesExact 5 t = owns (c : Thread nD τ) (ms1_5 t) fullShare ((dat1 V c).after 5 t) from by
      unfold Dat.leavesExact; rw [liveAt1_5 t hc1], after1_5, scAt1_next V c t h0]
    exact body1_of_run V c t _ _ _ (fun _ => out1_5 (scStepAt1 V c t (scAt1 V c (t.val - 1) (by omega)))) _
      (fun x5 K => run1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) hc0 hc1 x5 _ Set.univ K) (fun _ => .rfl)
  have hc1 : ¬cond1_1 (grid1.coords t) := fun h => h1 ((hcond1_1 t).mp h)
  rw [Dat.leavesExact_idle (dat1 V c) 5 t (idleAt1_5 t hc1) (noFlush1_5 t hc1), scAt1_next V c t h0]
  exact body1_of_run V c t _ _ _ id _ (fun x5 K => run1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) hc0 hc1 x5 _ Set.univ K)
    (fun d => by iintro H; iexists d; iexact H)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [PhiA1_eq]; exact PhiS1_any V c (Fin.last cfg1.N).val (Nat.le_of_lt_succ (Fin.last cfg1.N).isLt)

end Region

end Cert.Kernel.Hand

end
-- ==== Proof.WordHalf1Inst.lean ====
import proofs.«405954_j50337016709322_3_alg».proof.Proof.WordHalf0Inst
import proofs.«405954_j50337016709322_3_alg».proof.Proof.WordR1Frame

noncomputable section

namespace Cert.Kernel.Hand

open Cert.Kernel Cert.Kernel.Gen
open Idealize.ShloMosaic Idealize.ShloMosaic.TcCoe
open Idealize.SL Idealize.SL.BI
open scoped Idealize.SL.BI
open Idealize.SL.Sem
open Idealize.ShloMosaic.Pipeline (Dat BodyObligation)

variable {F : FTy → Type} [FloatOps F]

def half1 (V : Contents F) : Half1 V where
  dat := dat1 V
  A_eq := A_eq1 V
  q_eq := fun _ _ => by dsimp only [dat1]
  owed_eq := fun _ _ => by dsimp only [dat1]
  rec_eq := fun _ _ => by dsimp only [dat1]
  body := body_obligation1 V
  hin := hin1 V
  hout := hout1 V

variable (m : (ℓ : Loc nD τ sig) → Buf (Elt F) ℓ) (ρ : Dev nD → PrngReg)

abbrev first : Half0 (T1 m ρ) := half0 (T1 m ρ)
abbrev second : Half1 (T3 m ρ (first m ρ)) := half1 (T3 m ρ (first m ρ))

theorem run_whole : θ_run defs (onTc (τ := τ) (main (F := F))) ⟨m, fun _ => 0, ρ⟩ (fun r => ∀ c : Dev nD,
      r.2.mem ((c.tc : Thread nD τ).loc main_v3) = (dat1 (T3 m ρ (first m ρ)) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ (first m ρ) (second m ρ)

end Cert.Kernel.Hand

end
-- ==== Proof.Assembly.lean ====
/- The whole program's run from the two pallas_calls' proof data: every buffer's contents are known between the items. -/
import proofs.«405954_j50337016709322_3_alg».proof.Proof.Gen.KernelIdeal.Launch
import proofs.«405954_j50337016709322_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev Contents (F : FTy → Type) : Type := (c : Dev nD) → (b : Ref sig .tc) → Buf (Elt F) ((c : Thread nD τ).loc b)

structure Half0 (V : Contents F) where
  dat : (c : Dev nD) → Dat τ (Elt F) Unit ℕ (UR sig nD τ) ℕ cfg0 c
  A_eq : ∀ c w, (dat c).A w = V c (Pipeline.arrRef spec0 w)
  q_eq : ∀ c w, (dat c).q w = fullShare
  owed_eq : ∀ c t, (dat c).owed t = 0
  rec_eq : ∀ c t, (dat c).recorded t = Set.univ
  body : ∀ c, BodyObligation (dat c) (defs₀ (F := F)) Variants.none () Set.univ
  hin : ∀ c, (Pipeline.ΦA spec0 c : sProp 𝕄) ⊢ (dat c).Φ 0
  hout : ∀ c, (dat c).Φ (Fin.last cfg0.N) ⊢ (Pipeline.ΦA spec0 c : sProp 𝕄)

structure Half1 (V : Contents F) where
  dat : (c : Dev nD) → Dat τ (Elt F) Unit ℕ (UR sig nD τ) ℕ cfg1 c
  A_eq : ∀ c w, (dat c).A w = V c (Pipeline.arrRef spec1 w)
  q_eq : ∀ c w, (dat c).q w = fullShare
  owed_eq : ∀ c t, (dat c).owed t = 0
  rec_eq : ∀ c t, (dat c).recorded t = Set.univ
  body : ∀ c, BodyObligation (dat c) (defs₀ (F := F)) Variants.none () Set.univ
  hin : ∀ c, (Pipeline.ΦA spec1 c : sProp 𝕄) ⊢ (dat c).Φ 0
  hout : ∀ c, (dat c).Φ (Fin.last cfg1.N) ⊢ (Pipeline.ΦA spec1 c : sProp 𝕄)

variable (m : (ℓ : Loc nD τ sig) → Buf (Elt F) ℓ) (ρ : Dev nD → PrngReg)

abbrev B0 : Dev nD → Valuation τ sig (Elt F) := fun c b => (s₀ m ρ).mem ((c : Dev nD), b)
abbrev B1 : Dev nD → Valuation τ sig (Elt F) := fun c => StableHlo.after (hostOps0 (F := F)) (B0 m ρ c)
abbrev T1 : Contents F := fun c b => B1 m ρ c b

variable (H0 : Half0 (T1 m ρ))

def B2 (c : Dev nD) : Valuation τ sig (Elt F) :=
  Pipeline.withArrays spec0 c (B1 m ρ c) fun w => (H0.dat c).arrAt w cfg0.N
theorem B2_arr (c : Dev nD) (w : Fin cfg0.W) :
    B2 m ρ H0 c (Proc.devRef .tc (Pipeline.arrRef spec0 w)) = (H0.dat c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ H0 c (Proc.devRef .tc b) = B1 m ρ c (Proc.devRef .tc b) := by
  unfold B2; exact Pipeline.withArrays_of_ne spec0 c _ _ b hb
abbrev T2 : Contents F := fun c b => B2 m ρ H0 c b
theorem exit0 (c : Dev nD) (w : Fin cfg0.W) : (H0.dat c).arrAt w cfg0.N = T2 m ρ H0 c (Pipeline.arrRef spec0 w) :=
  (B2_arr m ρ H0 c w).symm
theorem rest0 (c : Dev nD) : ∀ b, b ∉ Finset.univ.image (Pipeline.arrRef spec0) → T2 m ρ H0 c b = T1 m ρ c b :=
  fun b hb => B2_of_ne m ρ H0 c b fun w e => hb (Finset.mem_image.mpr ⟨w, Finset.mem_univ _, e⟩)

abbrev B3 : Dev nD → Valuation τ sig (Elt F) := fun c => StableHlo.after (hostOps1 (F := F)) (B2 m ρ H0 c)
abbrev T3 : Contents F := fun c b => B3 m ρ H0 c b

variable (H1 : Half1 (T3 m ρ H0))

def B4 (c : Dev nD) : Valuation τ sig (Elt F) :=
  Pipeline.withArrays spec1 c (B3 m ρ H0 c) fun w => (H1.dat c).arrAt w cfg1.N
theorem B4_arr (c : Dev nD) (w : Fin cfg1.W) :
    B4 m ρ H0 H1 c (Proc.devRef .tc (Pipeline.arrRef spec1 w)) = (H1.dat c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ H0 H1 c (Proc.devRef .tc b) = B3 m ρ H0 c (Proc.devRef .tc b) := by
  unfold B4; exact Pipeline.withArrays_of_ne spec1 c _ _ b hb
abbrev T4 : Contents F := fun c b => B4 m ρ H0 H1 c b
theorem exit1 (c : Dev nD) (w : Fin cfg1.W) : (H1.dat c).arrAt w cfg1.N = T4 m ρ H0 H1 c (Pipeline.arrRef spec1 w) :=
  (B4_arr m ρ H0 H1 c w).symm
theorem rest1 (c : Dev nD) : ∀ b, b ∉ Finset.univ.image (Pipeline.arrRef spec1) → T4 m ρ H0 H1 c b = T3 m ρ H0 c b :=
  fun b hb => B4_of_ne m ρ H0 H1 c b fun w e => hb (Finset.mem_image.mpr ⟨w, Finset.mem_univ _, e⟩)

theorem B4_main_arg0 (c : Dev nD) : B4 m ρ H0 H1 c (Proc.devRef .tc main_arg0) = m ((c : Thread nD τ).loc main_arg0) :=
  calc B4 m ρ H0 H1 c (Proc.devRef .tc main_arg0)
    _ = B3 m ρ H0 c (Proc.devRef .tc main_arg0) := (B4_arr m ρ H0 H1 c 0).trans (((H1.dat c).arrAt_in 0 rfl _).trans (H1.A_eq c 0))
    _ = B2 m ρ H0 c (Proc.devRef .tc main_arg0) := StableHlo.after_of_writes_sub (hostOps1 (F := F)) _ hostOps1_writes (by decide)
    _ = B1 m ρ c (Proc.devRef .tc main_arg0) := (B2_arr m ρ H0 c 0).trans (((H0.dat c).arrAt_in 0 rfl _).trans (H0.A_eq c 0))
    _ = B0 m ρ c (Proc.devRef .tc main_arg0) := StableHlo.after_of_writes_sub (hostOps0 (F := F)) _ hostOps0_writes (by decide)
    _ = m ((c : Thread nD τ).loc main_arg0) := rfl

theorem B4_main_arg1 (c : Dev nD) : B4 m ρ H0 H1 c (Proc.devRef .tc main_arg1) = m ((c : Thread nD τ).loc main_arg1) :=
  calc B4 m ρ H0 H1 c (Proc.devRef .tc main_arg1)
    _ = B3 m ρ H0 c (Proc.devRef .tc main_arg1) := B4_of_ne m ρ H0 H1 c main_arg1 (by decide)
    _ = B2 m ρ H0 c (Proc.devRef .tc main_arg1) := StableHlo.after_of_writes_sub (hostOps1 (F := F)) _ hostOps1_writes (by decide)
    _ = B1 m ρ c (Proc.devRef .tc main_arg1) := B2_of_ne m ρ H0 c main_arg1 (by decide)
    _ = B0 m ρ c (Proc.devRef .tc main_arg1) := StableHlo.after_of_writes_sub (hostOps0 (F := F)) _ hostOps0_writes (by decide)
    _ = m ((c : Thread nD τ).loc main_arg1) := rfl

theorem B4_main_v3 (c : Dev nD) : B4 m ρ H0 H1 c (Proc.devRef .tc main_v3) = (H1.dat c).arrAt 5 cfg1.N :=
  B4_arr m ρ H0 H1 c 5

def pdats : (p : Fin 2) → (c : Dev nD) → Dat τ (Elt F) Unit ℕ (UR sig nD τ) ℕ (Pipeline.pin (pcfgs (F := F)) Gen.adm p) c
  | ⟨0, _⟩ => fun c => H0.dat c
  | ⟨1, _⟩ => fun c => H1.dat c

abbrev 𝒱₀ : Variants := Variants.none
abbrev Lv : GSem nD τ sig → Finset Unit := fun _ => ∅
abbrev lvl : GSem nD τ sig → Unit → ℕ := fun _ _ => 0
abbrev Rest (c : Dev nD) : sProp 𝕄 := iprop((∃ r, prngReg c r) ∗ ∃ W, owes (c : Thread nD τ) (0 : CellTallies nD τ sig Unit) W)

abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (B4 m ρ H0 H1 c) ∗ ∃ r, prngReg c r)

set_option backward.isDefEq.respectTransparency.types false in
def reg0 : Pipeline.RegionSeg (pcfgs (F := F)) Gen.adm (pdats m ρ H0 H1) () defs₀ 𝒱₀ Lv lvl 0 where
  win := launch0.win.to₀
  block_pos := launch0.block_pos
  stage_whole := launch0.stage_whole
  K := PEmpty
  osem k := k.elim
  ho := Pipeline.OwnSemFacts.none _
  hbody c := (H0.body c).loose
  hwaits := Pipeline.hwaits_of_owed_zero _ _ _ _ Lv lvl 0 fun c t => H0.owed_eq c t
  pre c := iprop(StableHlo.held (c : Thread nD τ) (Pipeline.ucRefs τ sig) (B1 m ρ c) ∗ Rest c)
  post c := iprop(StableHlo.held (c : Thread nD τ) (Pipeline.ucRefs τ sig) (B2 m ρ H0 c) ∗ Rest c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) Gen.adm (pdats m ρ H0 H1) launch0.win launch0.arr_whole c
      ((pdats m ρ H0 H1 0 c).share_full fun w => H0.q_eq c w) (T1 m ρ c) fun w => H0.A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ H0 H1 0 c).owed 0 = 0 from H0.owed_eq c 0]
      icases HO with ⟨%W, HO⟩; iexists W; isplitr; · ipureintro; exact fun _ _ => Or.inl ((H0.rec_eq c 0).symm ▸ Set.mem_univ _)
      iexact HO
    isplitl [Hp]; · iexact Hp
    iexact Hrest
  hin c := by
    refine (?_ : _ ⊢ (Pipeline.ΦA spec0 c : sProp 𝕄)).trans (H0.hin c)
    unfold Pipeline.ΦA
    iintro ⟨Hp, -, Hr⟩
    isplitl [Hr]; · iexact Hr
    iexact Hp
  hout c := by
    rw [Pipeline.ownSems0_none]
    refine (H0.hout c).trans (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ H0 H1) ((pdats m ρ H0 H1 0 c).share_full fun w => H0.q_eq c w)
      (T1 m ρ c) (T2 m ρ H0 c) ((pdats m ρ H0 H1 0 c).arrAt · cfg0.N) (exit0 m ρ H0 c) (rest0 m ρ H0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ H0 H1 0 c).owed (Fin.last _) = 0 from H0.owed_eq c _]
    icases HO with ⟨%W, -, HO⟩; iexists W; iexact HO

set_option backward.isDefEq.respectTransparency.types false in
def reg1 : Pipeline.RegionSeg (pcfgs (F := F)) Gen.adm (pdats m ρ H0 H1) () defs₀ 𝒱₀ Lv lvl 1 where
  win := launch1.win.to₀
  block_pos := launch1.block_pos
  stage_whole := launch1.stage_whole
  K := PEmpty
  osem k := k.elim
  ho := Pipeline.OwnSemFacts.none _
  hbody c := (H1.body c).loose
  hwaits := Pipeline.hwaits_of_owed_zero _ _ _ _ Lv lvl 1 fun c t => H1.owed_eq c t
  pre c := iprop(StableHlo.held (c : Thread nD τ) (Pipeline.ucRefs τ sig) (B3 m ρ H0 c) ∗ Rest c)
  post c := iprop(Tend m ρ H0 H1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (T3 m ρ H0 c)
  hentry c := by
    rw [Pipeline.ownSems0_none]
    have hsplit := Pipeline.arrays_of_unscopedBufs (p := 1) (pcfgs (F := F)) Gen.adm (pdats m ρ H0 H1) launch1.win launch1.arr_whole c
      ((pdats m ρ H0 H1 1 c).share_full fun w => H1.q_eq c w) (T3 m ρ H0 c) fun w => H1.A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ H0 H1 1 c).owed 0 = 0 from H1.owed_eq c 0]
      icases HO with ⟨%W, HO⟩; iexists W; isplitr; · ipureintro; exact fun _ _ => Or.inl ((H1.rec_eq c 0).symm ▸ Set.mem_univ _)
      iexact HO
    isplitl [Hp]; · iexact Hp
    iexact Hrest
  hin c := by
    refine (?_ : _ ⊢ (Pipeline.ΦA spec1 c : sProp 𝕄)).trans (H1.hin c)
    unfold Pipeline.ΦA
    iintro ⟨Hp, -, Hr⟩
    isplitl [Hr]; · iexact Hr
    iexact Hp
  hout c := by
    rw [Pipeline.ownSems0_none]
    refine (H1.hout c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m ρ H0 H1) ((pdats m ρ H0 H1 1 c).share_full fun w => H1.q_eq c w)
      (T3 m ρ H0 c) (T4 m ρ H0 H1 c) ((pdats m ρ H0 H1 1 c).arrAt · cfg1.N) (exit1 m ρ H0 H1 c) (rest1 m ρ H0 H1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ H0 H1 1 c).owed (Fin.last _) = 0 from H1.owed_eq c _]
    icases HO with ⟨%W, -, HO⟩; iexists W; iexact HO

abbrev items : List (Pipeline.Seg (pcfgs (F := F)) Gen.adm (pdats m ρ H0 H1) () defs₀ 𝒱₀ Lv lvl) :=
  [ .host (hostItem (hostOps0 (F := F)) hostOps0_sub hostOps0_fresh (B0 m ρ)),
    .region (reg0 m ρ H0 H1),
    .host (hostItem (hostOps1 (F := F)) hostOps1_sub hostOps1_fresh (B2 m ρ H0)),
    .region (reg1 m ρ H0 H1) ]

theorem main_run (c : Dev nD) : main (F := F) c = Pipeline.Seg.run (items m ρ H0 H1) := (main_chain c).trans (by chain_rfl)

set_option backward.isDefEq.respectTransparency.types false in
theorem run_main : θ_run defs (onTc (τ := τ) (main (F := F))) ⟨m, fun _ => 0, ρ⟩ (fun r => ∀ c : Dev nD,
      r.2.mem ((c.tc : Thread nD τ).loc main_v3) = (H1.dat c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) Gen.adm (pdats m ρ H0 H1) () cellOf_inj emb₁ defs₀ 𝒱₀ Lv lvl m ρ main (items m ρ H0 H1)
    (fun c Q => by rw [main_run m ρ H0 H1 c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Tend m ρ H0 H1)
    (hch := ⟨fun _ => .rfl, fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ H0 H1 c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ H0 H1 c) s')
      isplitl [Hh] <;> iassumption)
    (hQ := fun s h c =>
      ⟨(h c _ (mem_uc main_v3 (by decide))).trans (B4_main_v3 m ρ H0 H1 c),
       (h c _ (mem_uc main_arg0 (by decide))).trans (B4_main_arg0 m ρ H0 H1 c),
       (h c _ (mem_uc main_arg1 (by decide))).trans (B4_main_arg1 m ρ H0 H1 c)⟩)

end Cert.KernelIdeal.Hand

end
-- ==== Proof.HostGlue.lean ====
import proofs.«405954_j50337016709322_3_alg».proof.Proof.Assembly
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F] [Named F]
variable (m : (ℓ : Loc nD τ sig) → Buf (Elt F) ℓ) (ρ : Dev nD → PrngReg)

theorem T1_main_arg0 (c : Dev nD) : T1 m ρ c main_arg0 = m ((c : Thread nD τ).loc main_arg0) :=
  (StableHlo.after_of_writes_sub (hostOps0 (F := F)) _ hostOps0_writes (by decide)).trans rfl

theorem T1_main_v0 (c : Dev nD) :
    (T1 m ρ c main_v0 : S8192x512.Idx → Elt F .f32)
      = concatenate S8192x512 0 [⟨S4096x512, m ((c : Thread nD τ).loc main_arg0)⟩, ⟨S4096x512, m ((c : Thread nD τ).loc main_arg1)⟩] concatenates_S4096x512_S4096x512_S8192x512_d0 := by
  show StableHlo.after (hostOps0 (F := F)) (B0 m ρ c) (Proc.devRef .tc main_v0) = _
  after_results

variable (H0 : Half0 (T1 m ρ))

theorem T3_main_v0 (c : Dev nD) : T3 m ρ H0 c main_v0 = T1 m ρ c main_v0 :=
  calc T3 m ρ H0 c main_v0
    _ = B2 m ρ H0 c (Proc.devRef .tc main_v0) := StableHlo.after_of_writes_sub (hostOps1 (F := F)) _ hostOps1_writes (by decide)
    _ = T1 m ρ c main_v0 := (B2_arr m ρ H0 c 1).trans (((H0.dat c).arrAt_in 1 rfl _).trans (H0.A_eq c 1))

theorem T3_main_v1_0 (c : Dev nD) : T3 m ρ H0 c main_v1_0 = (H0.dat c).arrAt 2 cfg0.N :=
  (StableHlo.after_of_writes_sub (hostOps1 (F := F)) _ hostOps1_writes (by decide)).trans (B2_arr m ρ H0 c 2)

theorem T3_main_v1_1 (c : Dev nD) : T3 m ρ H0 c main_v1_1 = (H0.dat c).arrAt 3 cfg0.N :=
  (StableHlo.after_of_writes_sub (hostOps1 (F := F)) _ hostOps1_writes (by decide)).trans (B2_arr m ρ H0 c 3)

theorem T3_main_v2 (c : Dev nD) :
    (T3 m ρ H0 c main_v2 : S1x8192.Idx → Elt F .f32)
      = Host.reduceAdd ((H0.dat c).arrAt 4 cfg0.N : S4x1x8192.Idx → Elt F .f32) (constant S_ .f32 0x00000000#32) reducesTo_S4x1x8192_S1x8192_d0 h_S_ := by
  show StableHlo.after (hostOps1 (F := F)) (B2 m ρ H0 c) (Proc.devRef .tc main_v2) = _
  after_results
  rw [show B2 m ρ H0 c (Proc.devRef .tc main_v1_2) = (H0.dat c).arrAt 4 cfg0.N from B2_arr m ρ H0 c 4]

end Cert.KernelIdeal.Hand

end
-- ==== Proof.Spec.lean ====
import Idealize.ShloMosaic.PureOps.Ideal

noncomputable section

open scoped BigOperators

namespace Cert.BiNorm

open Idealize.ShloMosaic

abbrev Mat (a b : ℕ) : Type := Fin a → Fin b → EReal

def two : EReal := Ideal.ofBits .f32 0x40000000#32
def fill : EReal := Ideal.ofBits .f32 0x49742400#32
def floorEps : EReal := Ideal.ofBits .f32 0x2B8CBCCC#32
def temp : EReal := Ideal.ofBits .f32 0x3D4CCCCD#32
def negInvTemp : EReal := ((-268435456 / 13421773 : ℝ) : EReal)

def lo (j : Fin 4096) : Fin 8192 := ⟨j.val, by omega⟩
def hi (j : Fin 4096) : Fin 8192 := ⟨j.val + 4096, by omega⟩

def tgt (g p : Mat 4096 512) : Mat 8192 512 := fun j d =>
  if h : j.val < 4096 then g ⟨j.val, h⟩ d else p ⟨j.val - 4096, by omega⟩ d

def sqNorm {n : ℕ} (x : Mat n 512) (i : Fin n) : EReal := ∑ d : Fin 512, x i d * x i d
def inner {n k : ℕ} (x : Mat n 512) (y : Mat k 512) (i : Fin n) (j : Fin k) : EReal := ∑ d : Fin 512, x i d * y j d
def sqDist {n k : ℕ} (x : Mat n 512) (y : Mat k 512) (i : Fin n) (j : Fin k) : EReal :=
  sqNorm x i + sqNorm y j - two * inner x y i j
def dist (g p : Mat 4096 512) (i : Fin 4096) (j : Fin 8192) : EReal :=
  if i.val = j.val then fill else Ideal.sqrt (max (sqDist g (tgt g p) i j) 0)

def simMul (g p : Mat 4096 512) : Mat 4096 8192 := fun i j => Ideal.exp (dist g p i j * negInvTemp)
def simDiv (g p : Mat 4096 512) : Mat 4096 8192 := fun i j => Ideal.exp (Ideal.div (-(dist g p i j)) temp)

def rowSum (K : Mat 4096 8192) (i : Fin 4096) : EReal := ∑ j : Fin 8192, K i j
def colSum (K : Mat 4096 8192) (j : Fin 8192) : EReal := ∑ i : Fin 4096, K i j
def normMul (K : Mat 4096 8192) : Mat 4096 8192 := fun i j =>
  K i j * Ideal.rsqrt (max (rowSum K i * colSum K j) floorEps)
def normDiv (K : Mat 4096 8192) : Mat 4096 8192 := fun i j =>
  Ideal.div (K i j) (Ideal.sqrt (max (rowSum K i * colSum K j) floorEps))

def sumLo (N : Mat 4096 8192) (i : Fin 4096) : EReal := ∑ j : Fin 4096, N i (lo j)
def sumHi (N : Mat 4096 8192) (i : Fin 4096) : EReal := ∑ j : Fin 4096, N i (hi j)

def outer (N : Mat 4096 8192) (g p : Mat 4096 512) : Mat 4096 512 := fun i d =>
  sumLo N i * (∑ j : Fin 4096, N i (hi j) * p j d) - sumHi N i * (∑ j : Fin 4096, N i (lo j) * g j d)
def innerForm (N : Mat 4096 8192) (g p : Mat 4096 512) : Mat 4096 512 := fun i d =>
  (∑ j : Fin 4096, (N i (hi j) * sumLo N i) * p j d) - (∑ j : Fin 4096, (N i (lo j) * sumHi N i) * g j d)

def tiledResult (g p : Mat 4096 512) : Mat 4096 512 := outer (normMul (simMul g p)) g p
def wholeResult (g p : Mat 4096 512) : Mat 4096 512 := innerForm (normDiv (simDiv g p)) g p

def Finite {a b : ℕ} (x : Mat a b) : Prop := ∀ i d, ∃ r : ℝ, x i d = (r : EReal)

end Cert.BiNorm

end
-- ==== Proof.HostRead.lean ====
import proofs.«405954_j50337016709322_3_alg».proof.Proof.Gen.KernelIdeal
import proofs.«405954_j50337016709322_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.HostRead

open Cert.KernelIdeal Cert.KernelIdeal.Gen
open Idealize.ShloMosaic Idealize.ShloMosaic.TcCoe Idealize.ShloMosaic.ValueIdx
open Cert.BiNorm

abbrev mat {n : ℕ} (x : (⟨2, ![n, 512]⟩ : Shape).Idx → EReal) : Mat n 512 := fun i k => x (ix2 i k)

theorem targets_read (a b : (⟨S4096x512, .f32⟩ : BufTy).Contents (Elt Ideal)) (j : Fin 8192) (d : Fin 512) :
    concatenate S8192x512 0 [⟨S4096x512, a⟩, ⟨S4096x512, b⟩] concatenates_S4096x512_S4096x512_S8192x512_d0 (ix2 j d)
      = tgt (mat a) (mat b) j d := by
  unfold tgt
  by_cases h : j.val < 4096
  · rw [dif_pos h]
    exact concatenate_pair_apply_left (t := S8192x512) (s₁ := S4096x512) (s₂ := S4096x512) (0 : Fin 2) _ _ _ (ix2 j d) rfl
      (ix2 (⟨j.val, h⟩ : Fin 4096) d) (fun b => by match b with | ⟨0, _⟩ => rfl | ⟨1, _⟩ => rfl)
  · rw [dif_neg h]
    exact concatenate_pair_apply_right (t := S8192x512) (s₁ := S4096x512) (s₂ := S4096x512) (0 : Fin 2) _ _ _ (ix2 j d) rfl rfl
      (ix2 (⟨j.val - 4096, by omega⟩ : Fin 4096) d)
      (fun b hb => by match b with | ⟨0, _⟩ => exact absurd rfl hb | ⟨1, _⟩ => rfl)
      (by show j.val - 4096 + 4096 = j.val; omega)

theorem tilesum_read (x : (⟨S4x1x8192, .f32⟩ : BufTy).Contents (Elt Ideal)) (j : Fin 8192) :
    Host.reduceAdd (F := Ideal) x (constant S_ .f32 0x00000000#32) reducesTo_S4x1x8192_S1x8192_d0 h_S_ (ix2 (0 : Fin 1) j)
      = ∑ k : Fin 4, x (ix3 k (0 : Fin 1) j) := by
  simp only [Host.reduceAdd, Ideal.hostReduceAdd_def]
  rw [Ideal.hostReduceAdd_single reducesTo_S4x1x8192_S1x8192_d0 (by decide)]
  rw [show (constant (F := Ideal) S_ .f32 0x00000000#32) (Shape.Idx.first h_S_) = 0 from by
    simp only [constant, Ideal.ofBits_def, Ideal.ofBits_zero_f32], zero_add]
  refine Finset.sum_congr rfl fun k _ => ?_
  exact congrArg x (funext fun a => Fin.ext (by match a with | ⟨0, _⟩ => rfl | ⟨1, _⟩ => rfl | ⟨2, _⟩ => rfl))

end Cert.KernelIdeal.HostRead

end
-- ==== Proof.R0Dat.lean ====
/- The first pallas_call's proof data: the similarity tile of a point, and the row sums running along a grid row. -/
import proofs.«405954_j50337016709322_3_alg».proof.Proof.Gen.KernelIdeal.Launch
import proofs.«405954_j50337016709322_3_alg».proof.Proof.Gen.KernelIdeal.Skeleton
import proofs.«405954_j50337016709322_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev simAt0 (c : Dev nD) (t : Fin cfg0.N) : Vec F S1024x1024 .f32 :=
  k0_pay3 (grid0.coords t) (iblk0 V c 0 t) (iblk0 V c 1 t)

def rowAt0 (c : Dev nD) : (n : ℕ) → n < cfg0.N → Vec F S1024x1 .f32
  | 0, hn => k0_pay1 (simAt0 V c ⟨0, hn⟩) (k0_pay4 (F := F))
  | n + 1, hn =>
    if (n + 1) % 8 = 0 then k0_pay1 (simAt0 V c ⟨n + 1, hn⟩) (k0_pay4 (F := F))
    else k0_pay1 (simAt0 V c ⟨n + 1, hn⟩) (rowAt0 c n (Nat.lt_of_succ_lt hn))

theorem rowAt0_first (c : Dev nD) (t : Fin cfg0.N) (h : t.val % 8 = 0) :
    rowAt0 V c t.val t.isLt = k0_pay1 (simAt0 V c t) (k0_pay4 (F := F)) := by
  obtain ⟨n, hn⟩ := t
  cases n with
  | zero => rfl
  | succ n => exact (if_pos h).trans rfl

theorem rowAt0_next (c : Dev nD) (t : Fin cfg0.N) (h : ¬ t.val % 8 = 0) :
    rowAt0 V c t.val t.isLt = k0_pay1 (simAt0 V c t) (rowAt0 V c (t.val - 1) (Nat.lt_of_le_of_lt (Nat.sub_le _ _) t.isLt)) := by
  obtain ⟨n, hn⟩ := t
  cases n with
  | zero => exact absurd (Nat.zero_mod _) h
  | succ n => exact (if_neg h).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => simAt0 V c t
    | ⟨3, _⟩ => rowAt0 V c t.val t.isLt
    | ⟨4, _⟩ => k0_pay2 (simAt0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay3 (grid0.coords t) (iblk0 V c 0 t) (iblk0 V c 1 t) := by dsimp only [dat0]
theorem after0_3 (c : Dev nD) (t : Fin cfg0.N) : (dat0 V c).after 3 t = rowAt0 V c t.val t.isLt := by dsimp only [dat0]
theorem after0_4 (c : Dev nD) (t : Fin cfg0.N) :
    (dat0 V c).after 4 t = k0_pay2 (k0_pay3 (grid0.coords t) (iblk0 V c 0 t) (iblk0 V c 1 t)) := by dsimp only [dat0]

end Region0

end Cert.KernelIdeal.Hand

end
-- ==== Proof.Stores.lean ====
/- Whole buffers: what one reads after its last whole store, what a whole load of one reads, and when a run leaves one owned at a value. -/
import proofs.«405954_j50337016709322_3_alg».proof.Proof.Gen.KernelIdeal.Launch
import proofs.«405954_j50337016709322_3_alg».proof.Proof.Gen.KernelIdeal.Skeleton
import proofs.«405954_j50337016709322_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The last store covers every index, so the buffer reads as its payload. -/
theorem read_last {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

section
variable {S : Shape} {e : EltTy} (c : Dev nD) {a : Memref sig .tc .vmem S e}

/-- A whole buffer left as found is owned at what it held. -/
theorem kept (ha : a.IsWhole) (x : S.Idx → Elt F e) :
    (iprop(a.view.loc (c : Thread nD τ) ↦[a.view.set]{fullShare} ha.unread x) : sProp 𝕄)
      ⊢ iprop(∃ f, ⌜a.view.read (Elt F) f = x⌝ ∗ (a.view.loc (c : Thread nD τ) ↦[a.view.set]{fullShare} f)) := by
  iintro H; iexists _; isplitr; · ipureintro; exact ha.read_unread _
  iexact H

/-- A buffer whose last store filled it whole is owned at that store's payload. -/
theorem stored {f : a.view.ty.Contents (Elt F)} {off : Fin S.rank → Nat} (h : off = fun _ => 0)
    {inb : ∀ a, off a + S.size a ≤ S.size a} {w x : S.Idx → Elt F e} {L : List (View.Piece (Elt F) S e)} (hx : w = x) :
    (iprop(a.view.loc (c : Thread nD τ) ↦[a.view.set]{fullShare} a.view.writes (Elt F) f ((⟨Rect.unit off S.size inb, w⟩ : View.Piece (Elt F) S e) :: L)) : sProp 𝕄)
      ⊢ iprop(∃ f, ⌜a.view.read (Elt F) f = x⌝ ∗ (a.view.loc (c : Thread nD τ) ↦[a.view.set]{fullShare} f)) := by
  iintro H; iexists _; isplitr; · ipureintro; exact (read_last a.view f h inb w L).trans hx
  iexact H

end

section
variable {Val : EltTy → Type} [∀ e, Nonempty (Val e)] {e : EltTy}

theorem ld512 (inb) (X : S1024x512.Idx → Val e) : View.ld X (Rect.unit (s := S1024x512) ![0, 0] ![1024, 512] inb) = X := View.ld_unit_zero hz2 inb X
theorem ld1024 (inb) (X : S1024x1024.Idx → Val e) : View.ld X (Rect.unit (s := S1024x1024) ![0, 0] ![1024, 1024] inb) = X := View.ld_unit_zero hz2 inb X
theorem rc1 {sig' : RefSig} {κ : Kind} {sp : Space} (v : View sig' κ sp S1024x1 e) (inb) (w : S1024x1.Idx → Val e) :
    v.readCov [(⟨Rect.unit (s := S1024x1) ![0, 0] ![1024, 1] inb, w⟩ : View.Piece Val S1024x1 e)] (Rect.unit (s := S1024x1) ![0, 0] ![1024, 1] inb).toLoadRect = w := View.readCov_unit_zero v hz2 inb w
theorem rc512 {sig' : RefSig} {κ : Kind} {sp : Space} (v : View sig' κ sp S1024x512 e) (inb) (w : S1024x512.Idx → Val e) :
    v.readCov [(⟨Rect.unit (s := S1024x512) ![0, 0] ![1024, 512] inb, w⟩ : View.Piece Val S1024x512 e)] (Rect.unit (s := S1024x512) ![0, 0] ![1024, 512] inb).toLoadRect = w := View.readCov_unit_zero v hz2 inb w
theorem ld1 (inb) (X : S1024x1.Idx → Val e) : View.ld X (Rect.unit (s := S1024x1) ![0, 0] ![1024, 1] inb) = X := View.ld_unit_zero hz2 inb X

end

end Cert.KernelIdeal.Hand

end
-- ==== Proof.R0Run.lean ====
/- The first pallas_call's body at a point: the similarity tile, its column sums, and its row sums added to zeros where a grid row begins and to the running sums elsewhere. -/
import proofs.«405954_j50337016709322_3_alg».proof.Proof.Stores

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

section
variable (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1x1024 .f32) (harg6 : arg6.IsWhole)
  (x0 x1 : Vec F S1024x512 .f32)

set_option maxHeartbeats 1000000 in
theorem run0 (xo3 : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xo3 ∗ (∃ d, owns (c : Thread nD τ) arg6 fullShare d)
        ∗ (iprop(owns (c : Thread nD τ) arg2 fullShare x0 ∗ owns (c : Thread nD τ) arg3 fullShare x1 ∗ owns (c : Thread nD τ) arg4 fullShare (k0_pay3 i x0 x1)
            ∗ owns (c : Thread nD τ) arg5 fullShare (k0_pay1 (k0_pay3 i x0 x1) (if cond0_0 i then k0_pay4 (F := F) else xo3))
            ∗ owns (c : Thread nD τ) arg6 fullShare (k0_pay2 (k0_pay3 i x0 x1))) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  simp only [k0_part1_eq_skeleton]
  unfold owns
  by_cases hc0 : cond0_0 i <;> [rw [if_pos hc0]; rw [if_neg hc0]]
  all_goals
    iintro ⟨⟨%f0, %hf0, H0⟩, ⟨%f1, %hf1, H1⟩, ⟨%d2, %f2, -, H2⟩, ⟨%f3, %hf3, H3⟩, ⟨%d4, %f4, -, H4⟩, Hk⟩
    obtain rfl := harg2.eq_unread hf0; obtain rfl := harg3.eq_unread hf1; obtain rfl := harg5.eq_unread hf3
    sl_exec (disch := first | exact hc0)
    sl_step
    iapply Hk
    isplitl [H0]; · iapply kept c harg2; iexact H0
    isplitl [H1]; · iapply kept c harg3; iexact H1
    isplitl [H2]
    · iapply stored c hz2 ?_
      swap; · iexact H2
      sl_unfold_words
      simp only [View.readAt_eq_ld, Memref.IsWhole.read_unread, ld512, ld1, rc1]
      try rfl
    isplitl [H3]
    · iapply stored c hz2 ?_
      swap; · iexact H3
      sl_unfold_words
      simp only [View.readAt_eq_ld, Memref.IsWhole.read_unread, ld512, ld1, rc1]
      try rfl
    iapply stored c hz3 ?_
    swap; · iexact H4
    sl_unfold_words
    simp only [View.readAt_eq_ld, Memref.IsWhole.read_unread, ld512, ld1, rc1]
    try rfl

end

end Cert.KernelIdeal.Hand

end
-- ==== Proof.R0Frame.lean ====
/- The first pallas_call's body obligation at every point. -/
import proofs.«405954_j50337016709322_3_alg».proof.Proof.R0Dat
import proofs.«405954_j50337016709322_3_alg».proof.Proof.R0Run

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
variable (V : (c : Dev nD) → (b : Ref sig .tc) → Buf (Elt F) ((c : Thread nD τ).loc b))

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_3_next (c : Dev nD) (t : Fin cfg0.N) (h0 : ¬t.val % 8 = 0) (d) :
    (dat0 V c).before 3 t d = rowAt0 V c (t.val - 1) (Nat.lt_of_le_of_lt (Nat.sub_le _ _) t.isLt) := by
  have hN : t.val < 32 := lt_of_lt_of_eq t.isLt (show cfg0.N = 32 from N_0)
  rw [Dat.before_out_kept _ 3 rfl t (by omega)
    (Bool.eq_false_iff.mpr fun h => by have := (flush0_3 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  have hrow : k0_pay1 (simAt0 V c t) (if cond0_0 (grid0.coords t) then k0_pay4 (F := F) else (dat0 V c).before 3 t d3)
      = rowAt0 V c t.val t.isLt := by
    by_cases h0 : t.val % 8 = 0
    · rw [if_pos ((hcond0_0 t).mpr h0), rowAt0_first V c t h0]
    · rw [if_neg fun h => h0 ((hcond0_0 t).mp h), before0_3_next V c t h0, rowAt0_next V c t h0]
  rw [← hrow]
  iapply (run0 c (grid0.coords t) _ _ _ _ _ _ _ _ _ _ (iblk0 V c 0 t) (iblk0 V c 1 t) ((dat0 V c).before 3 t d3) Set.univ _)
  isplitl [H0]; · iexact H0
  isplitl [H1]; · iexact H1
  isplitl [H2]; · iexists _; iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Half0Inst.lean ====
import proofs.«405954_j50337016709322_3_alg».proof.Proof.Assembly
import proofs.«405954_j50337016709322_3_alg».proof.Proof.R0Frame

noncomputable section

namespace Cert.KernelIdeal.Hand

open Cert.KernelIdeal Cert.KernelIdeal.Gen
open Idealize.ShloMosaic Idealize.ShloMosaic.TcCoe
open Idealize.SL Idealize.SL.BI
open scoped Idealize.SL.BI
open Idealize.SL.Sem
open Idealize.ShloMosaic.Pipeline (Dat BodyObligation)

variable {F : FTy → Type} [FloatOps F] [Named F]

def half0 (V : Contents F) : Half0 V where
  dat := dat0 V
  A_eq := A_eq0 V
  q_eq := fun _ _ => by dsimp only [dat0]
  owed_eq := fun _ _ => by dsimp only [dat0]
  rec_eq := fun _ _ => by dsimp only [dat0]
  body := body_obligation0 V
  hin := fun c => by dsimp only [dat0]; exact BI.Entails.refl _
  hout := fun c => by dsimp only [dat0]; exact BI.Entails.refl _

end Cert.KernelIdeal.Hand

end
-- ==== Proof.TileSums.lean ====
import proofs.«405954_j50337016709322_3_alg».proof.Proof.Spec

noncomputable section

open scoped BigOperators

namespace Cert.BiNorm

open Idealize.ShloMosaic

def col (k : Fin 8) (q : Fin 1024) : Fin 8192 := ⟨k.val * 1024 + q.val, by omega⟩
def row (k : Fin 4) (q : Fin 1024) : Fin 4096 := ⟨k.val * 1024 + q.val, by omega⟩

theorem col_hi (k : Fin 8) (h : ¬ k.val < 4) (q : Fin 1024) : col k q = hi (row ⟨k.val - 4, by omega⟩ q) :=
  Fin.ext (by simp only [col, hi, row]; omega)

theorem tgt_lo (g p : Mat 4096 512) (j : Fin 4096) (d : Fin 512) : tgt g p (lo j) d = g j d := by
  have h : (lo j).val < 4096 := j.isLt
  unfold tgt
  rw [dif_pos h]
  rfl

theorem tgt_hi (g p : Mat 4096 512) (j : Fin 4096) (d : Fin 512) : tgt g p (hi j) d = p j d := by
  have h : ¬ (hi j).val < 4096 := by simp only [hi]; omega
  unfold tgt
  rw [dif_neg h]
  exact congrArg (fun t => p t d) (Fin.ext (by omega : j.val + 4096 - 4096 = j.val))

theorem sum_tiles_aux {m N : ℕ} (hN : N = m * 1024) (c : Fin m → Fin 1024 → Fin N)
    (hc : ∀ k q, (c k q).val = k.val * 1024 + q.val) (f : Fin N → EReal) :
    ∑ k : Fin m, ∑ q : Fin 1024, f (c k q) = ∑ j : Fin N, f j := by
  let e : Fin m × Fin 1024 ≃ Fin N :=
    { toFun := fun x => c x.1 x.2
      invFun := fun j => (⟨j.val / 1024, by have := j.isLt; omega⟩, ⟨j.val % 1024, by omega⟩)
      left_inv := fun x => by
        have h1 := x.1.isLt
        have h2 := x.2.isLt
        refine Prod.ext (Fin.ext ?_) (Fin.ext ?_)
        · show (c x.1 x.2).val / 1024 = x.1.val
          rw [hc]; omega
        · show (c x.1 x.2).val % 1024 = x.2.val
          rw [hc]; omega
      right_inv := fun j => by
        refine Fin.ext ?_
        show (c _ _).val = j.val
        rw [hc]
        show j.val / 1024 * 1024 + j.val % 1024 = j.val
        omega }
  rw [← Fintype.sum_prod_type' (fun k q => f (c k q))]
  exact Fintype.sum_equiv e _ _ (fun _ => rfl)

theorem sum_col_tiles (f : Fin 8192 → EReal) : ∑ k : Fin 8, ∑ q : Fin 1024, f (col k q) = ∑ j : Fin 8192, f j :=
  sum_tiles_aux (by norm_num) col (fun _ _ => rfl) f

theorem sum_row_tiles (f : Fin 4096 → EReal) : ∑ k : Fin 4, ∑ q : Fin 1024, f (row k q) = ∑ i : Fin 4096, f i :=
  sum_tiles_aux (by norm_num) row (fun _ _ => rfl) f

theorem sum_fin_eight (F : Fin 8 → EReal) :
    ∑ k : Fin 8, F k = ∑ k : Fin 4, F ⟨k.val, by omega⟩ + ∑ k : Fin 4, F ⟨k.val + 4, by omega⟩ := by
  refine (Fin.sum_univ_add (a := 4) (b := 4) F).trans ?_
  congr 1

theorem sum_lo_tiles (f : Fin 8192 → EReal) :
    ∑ k : Fin 8, (if k.val < 4 then ∑ q : Fin 1024, f (col k q) else 0) = ∑ j : Fin 4096, f (lo j) := by
  rw [← sum_row_tiles (fun i => f (lo i)), sum_fin_eight]
  have h1 : ∀ k : Fin 4, (if (⟨k.val, by omega⟩ : Fin 8).val < 4 then ∑ q : Fin 1024, f (col ⟨k.val, by omega⟩ q) else 0)
      = ∑ q : Fin 1024, f (lo (row k q)) := fun k => if_pos k.isLt
  have h2 : ∀ k : Fin 4, (if (⟨k.val + 4, by omega⟩ : Fin 8).val < 4 then ∑ q : Fin 1024, f (col ⟨k.val + 4, by omega⟩ q) else 0)
      = 0 := fun k => if_neg (by show ¬ (k.val + 4 < 4); omega)
  simp only [h1, h2, Finset.sum_const_zero, add_zero]

theorem sum_hi_tiles (f : Fin 8192 → EReal) :
    ∑ k : Fin 8, (if k.val < 4 then 0 else ∑ q : Fin 1024, f (col k q)) = ∑ j : Fin 4096, f (hi j) := by
  rw [← sum_row_tiles (fun i => f (hi i)), sum_fin_eight]
  have h1 : ∀ k : Fin 4, (if (⟨k.val, by omega⟩ : Fin 8).val < 4 then 0 else ∑ q : Fin 1024, f (col ⟨k.val, by omega⟩ q))
      = 0 := fun k => if_pos k.isLt
  have h2 : ∀ k : Fin 4, (if (⟨k.val + 4, by omega⟩ : Fin 8).val < 4 then 0 else ∑ q : Fin 1024, f (col ⟨k.val + 4, by omega⟩ q))
      = ∑ q : Fin 1024, f (hi (row k q)) := fun k => by
    have hk : ¬ (⟨k.val + 4, by omega⟩ : Fin 8).val < 4 := by show ¬ (k.val + 4 < 4); omega
    rw [if_neg hk]
    refine Finset.sum_congr rfl (fun q _ => ?_)
    rw [col_hi _ hk q]
    exact congrArg (fun t => f (hi (row t q))) (Fin.ext (by omega : k.val + 4 - 4 = k.val))
  simp only [h1, h2, Finset.sum_const_zero, zero_add]

def runSum (a : ℕ → EReal) : ℕ → EReal
  | 0 => 0 + a 0
  | (n + 1) => runSum a n + a (n + 1)

theorem runSum_eq (a : ℕ → EReal) (n : ℕ) : runSum a n = ∑ k : Fin (n + 1), a k.val := by
  induction n with
  | zero => simp [runSum]
  | succ n ih =>
    rw [runSum, ih, Fin.sum_univ_castSucc (n := n + 1)]
    simp only [Fin.coe_castSucc, Fin.val_last]

theorem runSum_seven (a : ℕ → EReal) : runSum a 7 = ∑ k : Fin 8, a k.val := runSum_eq a 7

end Cert.BiNorm

end
-- ==== Proof.Val0Blocks.lean ====
import proofs.«405954_j50337016709322_3_alg».proof.Proof.R0Dat
import proofs.«405954_j50337016709322_3_alg».proof.Proof.Spec
import proofs.«405954_j50337016709322_3_alg».proof.Proof.TileSums
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.BiNorm (row col)

variable (V : (c : Dev nD) → (b : Ref sig .tc) → Buf (Elt Ideal) ((c : Thread nD τ).loc b))

theorem coords_facts : ∀ t : Fin cfg0.N, (grid0.coords t 0).val = t.val / 8 ∧ (grid0.coords t 1).val = t.val % 8 :=
  (by decide +kernel : ∀ t : Fin grid0.N, _)

theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = 0
    ∧ win0_4.index t (0 : Fin 3) = t.val / 8 ∧ win0_4.index t (1 : Fin 3) = 0 ∧ win0_4.index t (2 : Fin 3) = t.val % 8 :=
  (by decide +kernel : ∀ t : Fin grid0.N, _)

abbrev garr (c : Dev nD) : Vec Ideal S4096x512 .f32 := V c main_arg0
abbrev tarr (c : Dev nD) : Vec Ideal S8192x512 .f32 := V c main_v0
abbrev gblk (c : Dev nD) (t : Fin cfg0.N) : Vec Ideal S1024x512 .f32 := iblk0 V c 0 t
abbrev tblk (c : Dev nD) (t : Fin cfg0.N) : Vec Ideal S1024x512 .f32 := iblk0 V c 1 t

theorem gblk_apply (c : Dev nD) (t : Fin cfg0.N) (gi : Fin 4) (hgi : t.val / 8 = gi.val) (a : Fin 1024) (d : Fin 512) :
    gblk V c t (ix2 a d) = garr V c (ix2 (row gi a) d) := by
  obtain ⟨e0, e1, -⟩ := idx_facts t
  show V c main_arg0 (((cfg0.win 0).blk t).view.emb (ix2 a d)) = V c main_arg0 (ix2 (row gi a) d)
  refine congrArg (V c main_arg0) ?_
  funext ax
  apply Fin.ext
  match ax with
  | ⟨0, _⟩ => show win0_0.index t (0 : Fin 2) * 1024 + 1 * a.val = gi.val * 1024 + a.val; rw [e0, hgi]; omega
  | ⟨1, _⟩ => show win0_0.index t (1 : Fin 2) * 512 + 1 * d.val = d.val; rw [e1]; omega

theorem tblk_apply (c : Dev nD) (t : Fin cfg0.N) (kj : Fin 8) (hkj : t.val % 8 = kj.val) (b : Fin 1024) (d : Fin 512) :
    tblk V c t (ix2 b d) = tarr V c (ix2 (col kj b) d) := by
  obtain ⟨-, -, e0, e1, -⟩ := idx_facts t
  show V c main_v0 (((cfg0.win 1).blk t).view.emb (ix2 b d)) = V c main_v0 (ix2 (col kj b) d)
  refine congrArg (V c main_v0) ?_
  funext ax
  apply Fin.ext
  match ax with
  | ⟨0, _⟩ => show win0_1.index t (0 : Fin 2) * 1024 + 1 * b.val = kj.val * 1024 + b.val; rw [e0, hkj]; omega
  | ⟨1, _⟩ => show win0_1.index t (1 : Fin 2) * 512 + 1 * d.val = d.val; rw [e1]; omega

theorem emb2 (t : Fin cfg0.N) (gi : Fin 4) (kj : Fin 8) (hgi : t.val / 8 = gi.val) (hkj : t.val % 8 = kj.val)
    (a b : Fin 1024) : ((cfg0.win 2).blk t).view.emb (ix2 a b) = (ix2 (row gi a) (col kj b) : S4096x8192.Idx) := by
  obtain ⟨-, -, -, -, e0, e1, -⟩ := idx_facts t
  funext ax
  apply Fin.ext
  match ax with
  | ⟨0, _⟩ => show win0_2.index t (0 : Fin 2) * 1024 + 1 * a.val = gi.val * 1024 + a.val; rw [e0, hgi]; omega
  | ⟨1, _⟩ => show win0_2.index t (1 : Fin 2) * 1024 + 1 * b.val = kj.val * 1024 + b.val; rw [e1, hkj]; omega

theorem emb3 (t : Fin cfg0.N) (gi : Fin 4) (hgi : t.val / 8 = gi.val) (a : Fin 1024) :
    ((cfg0.win 3).blk t).view.emb (ix2 a (0 : Fin 1)) = (ix2 (row gi a) (0 : Fin 1) : S4096x1.Idx) := by
  obtain ⟨-, -, -, -, -, -, e0, e1, -⟩ := idx_facts t
  funext ax
  apply Fin.ext
  match ax with
  | ⟨0, _⟩ => show win0_3.index t (0 : Fin 2) * 1024 + 1 * a.val = gi.val * 1024 + a.val; rw [e0, hgi]; omega
  | ⟨1, _⟩ => show win0_3.index t (1 : Fin 2) * 1 + 1 * 0 = 0; rw [e1]

theorem emb4 (t : Fin cfg0.N) (gi : Fin 4) (kj : Fin 8) (hgi : t.val / 8 = gi.val) (hkj : t.val % 8 = kj.val)
    (b : Fin 1024) :
    ((cfg0.win 4).blk t).view.emb (ix3 (0 : Fin 1) (0 : Fin 1) b) = (ix3 gi (0 : Fin 1) (col kj b) : S4x1x8192.Idx) := by
  obtain ⟨-, -, -, -, -, -, -, -, e0, e1, e2⟩ := idx_facts t
  funext ax
  apply Fin.ext
  match ax with
  | ⟨0, _⟩ => show win0_4.index t (0 : Fin 3) * 1 + 1 * 0 = gi.val; rw [e0, hgi]; omega
  | ⟨1, _⟩ => show win0_4.index t (1 : Fin 3) * 1 + 1 * 0 = 0; rw [e1]
  | ⟨2, _⟩ => show win0_4.index t (2 : Fin 3) * 1024 + 1 * b.val = kj.val * 1024 + b.val; rw [e2, hkj]; omega

end Cert.KernelIdeal.Val

end
-- ==== Proof.Pay0Layout.lean ====
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay0.Layout

open Idealize.ShloMosaic Idealize.ShloMosaic.ValueIdx

theorem sumAxis1_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 h hφ hacc (ix1 p) = ∑ q : Fin b, src (ix2 p q) := by
  refine (Ideal.multiReduction_add_single src 0x00000000#32 h hφ hacc (ix1 p)).trans ?_
  show ∑ q : Fin b, src (h.lift (ix1 p) q) = _
  refine Finset.sum_congr rfl fun q _ => congrArg src ?_
  funext ax
  match ax with
  | ⟨0, _⟩ => exact Fin.ext rfl
  | ⟨1, _⟩ => exact Fin.ext rfl

theorem sumAxis0_apply {a b : ℕ} (src : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (q : Fin b) :
    multiReduction (F := Ideal) .add [0] ⟨1, ![b]⟩ src 0x00000000#32 h hφ hacc (ix1 q) = ∑ p : Fin a, src (ix2 p q) := by
  refine (Ideal.multiReduction_add_single src 0x00000000#32 h hφ hacc (ix1 q)).trans ?_
  show ∑ p : Fin a, src (h.lift (ix1 q) p) = _
  refine Finset.sum_congr rfl fun p _ => congrArg src ?_
  funext ax
  match ax with
  | ⟨0, _⟩ => exact Fin.ext rfl
  | ⟨1, _⟩ => exact Fin.ext rfl

variable {α : Type}

theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.KernelIdeal.Pay0.Layout

end
-- ==== Proof.Pay0Tile.lean ====
import proofs.«405954_j50337016709322_3_alg».proof.Proof.Gen.KernelIdeal.Skeleton
import proofs.«405954_j50337016709322_3_alg».proof.Proof.Spec
import proofs.«405954_j50337016709322_3_alg».proof.Proof.Pay0Layout
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.PureOps.IdealRules

noncomputable section

open scoped BigOperators

namespace Cert.KernelIdeal.Pay0.Tile

open Cert.KernelIdeal Cert.KernelIdeal.Gen Idealize.ShloMosaic Idealize.ShloMosaic.ValueIdx Cert.KernelIdeal.Pay0.Layout

def sqnCol (x : FVec Ideal S1024x512 .f32) : FVec Ideal S1024x1 .f32 :=
  shapeCast S1024x1 (multiReduction (F := Ideal) .add [1] S1024 (mulf x x) 0x00000000#32 reduces_S1024x512_S1024 (.inl rfl) rfl)
    shapeCasts_S1024_S1024x1

theorem sqnCol_apply (x : FVec Ideal S1024x512 .f32) (p : Fin 1024) (u : Fin 1) :
    sqnCol x (ix2 p u) = ∑ d : Fin 512, x (ix2 p d) * x (ix2 p d) :=
  (shapeCast_a_a1_apply _ _ p u).trans (sumAxis1_apply (mulf x x) _ _ _ p)

def rowNorms (x : FVec Ideal S1024x512 .f32) : FVec Ideal S1024x1024 .f32 :=
  broadcastTo S1024x1024 (sqnCol x) broadcasts_S1024x1_S1024x1024

theorem rowNorms_apply (x : FVec Ideal S1024x512 .f32) (p q : Fin 1024) :
    rowNorms x (ix2 p q) = ∑ d : Fin 512, x (ix2 p d) * x (ix2 p d) :=
  (broadcastTo_a1_ab_apply _ _ p q).trans (sqnCol_apply x p 0)

def colNorms (y : FVec Ideal S1024x512 .f32) : FVec Ideal S1024x1024 .f32 :=
  broadcastTo S1024x1024 (transpose S1x1024 [1, 0] (sqnCol y) transposes_S1024x1_p1_0_S1x1024) broadcasts_S1x1024_S1024x1024

theorem colNorms_apply (y : FVec Ideal S1024x512 .f32) (p q : Fin 1024) :
    colNorms y (ix2 p q) = ∑ d : Fin 512, y (ix2 q d) * y (ix2 q d) :=
  ((broadcastTo_1b_ab_apply _ _ p q).trans (transpose_ix2_apply (sqnCol y) _ 0 q)).trans (sqnCol_apply y q 0)

theorem lhs_axis0 (i : S1024x1024.Idx) (k : dot_S1024x512_S1024x512_S1024x1024_1_1_0_0_n_n.contr.Idx) :
    (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_axis1 (i : S1024x1024.Idx) (k : dot_S1024x512_S1024x512_S1024x1024_1_1_0_0_n_n.contr.Idx) :
    (dot_S1024x512_S1024x512_S1024x1024_1_1_0_0_n_n.lhsIdx i k 1).val = (k ⟨0, by decide⟩).val :=
  dot_S1024x512_S1024x512_S1024x1024_1_1_0_0_n_n.lhsIdx_val_of_single rfl i k
theorem rhs_axis0 (i : S1024x1024.Idx) (k : dot_S1024x512_S1024x512_S1024x1024_1_1_0_0_n_n.contr.Idx) :
    (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_axis1 (i : S1024x1024.Idx) (k : dot_S1024x512_S1024x512_S1024x1024_1_1_0_0_n_n.contr.Idx) :
    (dot_S1024x512_S1024x512_S1024x1024_1_1_0_0_n_n.rhsIdx i k 1).val = (k ⟨0, by decide⟩).val :=
  dot_S1024x512_S1024x512_S1024x1024_1_1_0_0_n_n.rhsIdx_val_of_single rfl i k

def gram (x y : FVec Ideal S1024x512 .f32) : FVec Ideal S1024x1024 .f32 :=
  matmul dot_S1024x512_S1024x512_S1024x1024_1_1_0_0_n_n (some .fp32) x y (constant (F := Ideal) S1024x1024 .f32 0x00000000#32)

theorem gram_apply (x y : FVec Ideal S1024x512 .f32) (p q : Fin 1024) :
    gram x y (ix2 p q) = ∑ d : Fin 512, x (ix2 p d) * y (ix2 q d) := by
  unfold gram
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

theorem word_eq_iff (gi kj p q : ℕ) (hgi : gi < 4) (hkj : kj < 8) (hp : p < 1024) (hq : q < 1024) :
    BitVec.ofNat 32 p + BitVec.ofNat 32 gi * 1024#32 = BitVec.ofNat 32 q + BitVec.ofNat 32 kj * 1024#32
      ↔ gi * 1024 + p = kj * 1024 + q := by
  have e1 : BitVec.ofNat 32 p + BitVec.ofNat 32 gi * 1024#32 = BitVec.ofNat 32 (p + gi * 1024) := by
    rw [BitVec.ofNat_add, BitVec.ofNat_mul]
  have e2 : BitVec.ofNat 32 q + BitVec.ofNat 32 kj * 1024#32 = BitVec.ofNat 32 (q + kj * 1024) := by
    rw [BitVec.ofNat_add, BitVec.ofNat_mul]
  rw [e1, e2]
  constructor
  · intro h
    have h' := congrArg BitVec.toNat h
    simp only [BitVec.toNat_ofNat] at h'
    omega
  · intro h
    exact congrArg (BitVec.ofNat 32) (by omega)

def diagMask (i : grid0.Coords) : IVec S1024x1024 1 :=
  cmpi .eq
    (addi (iota .tc S1024x1024 32 [0] iota_S1024x1024_d0_w32) (broadcast S1024x1024 (Scalar.muli (BitVec.ofNat 32 (i 0).val) 1024#32)))
    (addi (iota .tc S1024x1024 32 [1] iota_S1024x1024_d1_w32) (broadcast S1024x1024 (Scalar.muli (BitVec.ofNat 32 (i 1).val) 1024#32)))

theorem diagMask_apply (i : grid0.Coords) (p q : Fin 1024) :
    diagMask i (ix2 p q) = 1#1 ↔ (i 0).val * 1024 + p.val = (i 1).val * 1024 + q.val := by
  have h0 : (i 0).val < 4 := (i 0).isLt
  have h1 : (i 1).val < 8 := (i 1).isLt
  unfold diagMask
  show IntOp.cmpi .eq
      (iota .tc S1024x1024 32 [0] iota_S1024x1024_d0_w32 (ix2 p q) + BitVec.ofNat 32 (i 0).val * 1024#32)
      (iota .tc S1024x1024 32 [1] iota_S1024x1024_d1_w32 (ix2 p q) + BitVec.ofNat 32 (i 1).val * 1024#32) = 1#1 ↔ _
  rw [StableHlo.Predicate.cmpi_eq_iff, iota_single_apply, iota_single_apply]
  exact word_eq_iff _ _ _ _ h0 h1 p.isLt q.isLt

theorem negInvTemp_eq : Named.named (F := Ideal) Cert.KernelIdeal.κ "neg_inv_temp" (φ := .f32) 0xC1A00000#32 = Cert.BiNorm.negInvTemp :=
  IdealRules.named_const.ideal_named_scalar _ _ _ _ rfl

theorem tail_apply (m : IVec S1024x1024 1) (nx ny g : FVec Ideal S1024x1024 .f32) (c : Ideal .f32) (P : Prop) [Decidable P]
    (j : S1024x1024.Idx) (hm : m j = 1#1 ↔ P) :
    exp (mulf (select m (broadcast S1024x1024 (Scalar.ofBits (F := Ideal) .f32 0x49742400#32))
        (sqrt (maximumf (subf (addf nx ny) (mulf (broadcast S1024x1024 (Scalar.ofBits (F := Ideal) .f32 0x40000000#32)) g))
          (broadcast S1024x1024 (Scalar.ofBits (F := Ideal) .f32 0x00000000#32)))))
      (broadcast S1024x1024 c)) j
      = Ideal.exp ((if P then Cert.BiNorm.fill else Ideal.sqrt (max (nx j + ny j - Cert.BiNorm.two * g j) 0)) * c) := by
  show Ideal.exp (Scalar.select (m j) (Ideal.ofBits .f32 0x49742400#32)
      (Ideal.sqrt (max (nx j + ny j - Ideal.ofBits .f32 0x40000000#32 * g j) (Ideal.ofBits .f32 0x00000000#32))) * c) = _
  rw [Ideal.ofBits_zero_f32]
  unfold Scalar.select
  have hm' : m j = (1 : BitVec 1) ↔ P := hm
  by_cases hP : P
  · rw [if_pos (hm'.mpr hP), if_pos hP]; rfl
  · rw [if_neg (fun h => hP (hm'.mp h)), if_neg hP]; rfl

theorem pay3_eq (i : grid0.Coords) (x0 x1 : Vec Ideal S1024x512 .f32) :
    k0_pay3 (F := Ideal) i x0 x1
      = exp (mulf (select (diagMask i) (broadcast S1024x1024 (Scalar.ofBits (F := Ideal) .f32 0x49742400#32))
          (sqrt (maximumf (subf (addf (rowNorms x0) (colNorms x1)) (mulf (broadcast S1024x1024 (Scalar.ofBits (F := Ideal) .f32 0x40000000#32)) (gram x0 x1)))
            (broadcast S1024x1024 (Scalar.ofBits (F := Ideal) .f32 0x00000000#32)))))
        (broadcast S1024x1024 (Named.named (F := Ideal) Cert.KernelIdeal.κ "neg_inv_temp" (φ := .f32) 0xC1A00000#32))) := by
  unfold k0_pay3
  simp only [shapeCast_self]
  rfl

end Cert.KernelIdeal.Pay0.Tile

namespace Cert.KernelIdeal.Pay0

open Cert.KernelIdeal Cert.KernelIdeal.Gen Idealize.ShloMosaic Idealize.ShloMosaic.ValueIdx Cert.KernelIdeal.Pay0.Tile

theorem pay3_apply (i : grid0.Coords) (x0 x1 : Vec Ideal S1024x512 .f32) (p q : Fin 1024) :
    k0_pay3 (F := Ideal) i x0 x1 (ix2 p q)
      = Ideal.exp ((if (i 0).val * 1024 + p.val = (i 1).val * 1024 + q.val then Cert.BiNorm.fill
          else Ideal.sqrt (max (Cert.BiNorm.sqDist (fun a d => x0 (ix2 a d)) (fun a d => x1 (ix2 a d)) p q) 0))
        * Cert.BiNorm.negInvTemp) := by
  rw [pay3_eq]
  refine (tail_apply _ _ _ _ _ _ (ix2 p q) (diagMask_apply i p q)).trans ?_
  rw [rowNorms_apply, colNorms_apply, gram_apply, negInvTemp_eq]
  rfl

end Cert.KernelIdeal.Pay0

end
-- ==== Proof.Val0Sim.lean ====
import proofs.«405954_j50337016709322_3_alg».proof.Proof.Val0Blocks
import proofs.«405954_j50337016709322_3_alg».proof.Proof.Pay0Tile

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.BiNorm

theorem sqDist_congr {n k n' k' : ℕ} (x : Mat n 512) (y : Mat k 512) (x' : Mat n' 512) (y' : Mat k' 512)
    (i : Fin n) (j : Fin k) (i' : Fin n') (j' : Fin k') (hx : ∀ d, x i d = x' i' d) (hy : ∀ d, y j d = y' j' d) :
    sqDist x y i j = sqDist x' y' i' j' := by
  unfold sqDist sqNorm Cert.BiNorm.inner
  simp only [hx, hy]

variable (g p : Mat 4096 512)

theorem tile_apply (i : grid0.Coords) (gi : Fin 4) (kj : Fin 8) (hi0 : (i 0).val = gi.val) (hi1 : (i 1).val = kj.val)
    (x0 x1 : Vec Ideal S1024x512 .f32) (hx0 : ∀ a d, x0 (ix2 a d) = g (row gi a) d)
    (hx1 : ∀ b d, x1 (ix2 b d) = tgt g p (col kj b) d) (a b : Fin 1024) :
    k0_pay3 (F := Ideal) i x0 x1 (ix2 a b) = simMul g p (row gi a) (col kj b) := by
  rw [Pay0.pay3_apply, hi0, hi1]
  unfold simMul Cert.BiNorm.dist
  rw [sqDist_congr (fun a d => x0 (ix2 a d)) (fun a d => x1 (ix2 a d)) g (tgt g p) a b (row gi a) (col kj b) (hx0 a) (hx1 b)]
  rfl

def simArr : Vec Ideal S4096x8192 .f32 := fun i => simMul g p (i 0) (i 1)

theorem simArr_apply (i : Fin 4096) (j : Fin 8192) : simArr g p (ix2 i j) = simMul g p i j := rfl

variable (V : (c : Dev nD) → (b : Ref sig .tc) → Buf (Elt Ideal) ((c : Thread nD τ).loc b)) (c : Dev nD)
variable (hg : ∀ i d, garr V c (ix2 i d) = g i d) (ht : ∀ j d, tarr V c (ix2 j d) = tgt g p j d)

include hg ht in
theorem simAt0_apply (t : Fin cfg0.N) (gi : Fin 4) (kj : Fin 8) (hgi : t.val / 8 = gi.val) (hkj : t.val % 8 = kj.val)
    (a b : Fin 1024) : simAt0 V c t (ix2 a b) = simMul g p (row gi a) (col kj b) := by
  obtain ⟨c0, c1⟩ := coords_facts t
  exact tile_apply g p (grid0.coords t) gi kj (c0.trans hgi) (c1.trans hkj) (gblk V c t) (tblk V c t)
    (fun a d => (gblk_apply V c t gi hgi a d).trans (hg _ d)) (fun b d => (tblk_apply V c t kj hkj b d).trans (ht _ d)) a b

include hg ht in
theorem flushed2_eq (t : Fin cfg0.N) :
    (dat0 V c).flushed 2 t = ((cfg0.win 2).blk t).view.read (Elt Ideal) (simArr g p) := by
  have hN : cfg0.N = 32 := N_0
  have htl : t.val < 32 := hN ▸ t.isLt
  show (cfg0.win 2).cut (grid0.coords t) ((dat0 V c).after 2 t) = _
  rw [after0_2]
  funext j
  obtain ⟨a, b, rfl⟩ : ∃ (a b : Fin 1024), j = ix2 a b := ⟨j 0, j 1, eq_ix2 j⟩
  show simAt0 V c t (ix2 a b) = simArr g p (((cfg0.win 2).blk t).view.emb (ix2 a b))
  rw [emb2 t ⟨t.val / 8, by omega⟩ ⟨t.val % 8, by omega⟩ rfl rfl a b, simArr_apply]
  exact simAt0_apply g p V c hg ht t _ _ rfl rfl a b

theorem mem_blk2 (t : Fin cfg0.N) (i : S4096x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v1_0).slice (win0_2.rect t)).set ↔ _
  rw [View.set_slice_whole, Rect.mem_set_unit]
  exact Iff.rfl

theorem cover2 (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  have hN : cfg0.N = 32 := N_0
  obtain ⟨t, htv⟩ : ∃ t : Fin cfg0.N, t.val = (i 0).val / 1024 * 8 + (i 1).val / 1024 :=
    ⟨⟨(i 0).val / 1024 * 8 + (i 1).val / 1024, by rw [hN]; omega⟩, rfl⟩
  obtain ⟨-, -, -, -, e0, e1, -⟩ := idx_facts t
  refine ⟨t, flush0_2 t, ?_⟩
  rw [mem_blk2]
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 1024 ≤ (i 1).val ∧ (i 1).val < win0_2.index t (1 : Fin 2) * 1024 + 1024
    rw [e1]; omega

include hg ht in
theorem sim_array : (dat0 V c).arrAt 2 cfg0.N = simArr g p :=
  (dat0 V c).arrAt_eq_of_cover 2 (simArr g p) (fun t _ => flushed2_eq g p V c hg ht t) cover2

include hg ht in
theorem sim_final (i : Fin 4096) (j : Fin 8192) : (dat0 V c).arrAt 2 cfg0.N (ix2 i j) = simMul g p i j :=
  congrFun (sim_array g p V c hg ht) (ix2 i j)

end Cert.KernelIdeal.Val

end
-- ==== Proof.Pay0Sums.lean ====
import proofs.«405954_j50337016709322_3_alg».proof.Proof.Gen.KernelIdeal.Skeleton
import proofs.«405954_j50337016709322_3_alg».proof.Proof.Spec
import proofs.«405954_j50337016709322_3_alg».proof.Proof.Pay0Layout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay0

open Cert.KernelIdeal Cert.KernelIdeal.Gen Idealize.ShloMosaic Idealize.ShloMosaic.ValueIdx Cert.KernelIdeal.Pay0.Layout

theorem pay1_apply (v33 : FVec Ideal S1024x1024 .f32) (v38 : Vec Ideal S1024x1 .f32) (p : Fin 1024) :
    k0_pay1 (F := Ideal) v33 v38 (ix2 p 0) = v38 (ix2 p 0) + ∑ q : Fin 1024, v33 (ix2 p q) := by
  unfold k0_pay1
  refine congrArg₂ (· + ·) ?_ ?_
  · exact congrFun (shapeCast_self v38 _) _
  · exact (shapeCast_a_a1_apply _ _ p 0).trans (sumAxis1_apply v33 _ _ _ p)

theorem pay2_apply (v33 : FVec Ideal S1024x1024 .f32) (q : Fin 1024) :
    k0_pay2 (F := Ideal) v33 (ix3 0 0 q) = ∑ p : Fin 1024, v33 (ix2 p q) := by
  unfold k0_pay2
  exact ((shapeCast_ab_1ab_apply _ _ 0 0 q).trans (shapeCast_a_1a_apply _ _ 0 q)).trans (sumAxis0_apply v33 _ _ _ q)

theorem pay4_apply (p : Fin 1024) : k0_pay4 (F := Ideal) (ix2 p 0) = 0 := by
  unfold k0_pay4
  exact Ideal.ofBits_zero_f32

end Cert.KernelIdeal.Pay0

end
-- ==== Proof.Val0Row.lean ====
import proofs.«405954_j50337016709322_3_alg».proof.Proof.Val0Sim
import proofs.«405954_j50337016709322_3_alg».proof.Proof.Pay0Sums

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.BiNorm

variable (g p : Mat 4096 512)

def tileRow (gi : Fin 4) (a : Fin 1024) (k : ℕ) : EReal :=
  if h : k < 8 then ∑ q : Fin 1024, simMul g p (row gi a) (col ⟨k, h⟩ q) else 0

theorem tileRow_of_lt (gi : Fin 4) (a : Fin 1024) (k : Fin 8) :
    tileRow g p gi a k.val = ∑ q : Fin 1024, simMul g p (row gi a) (col k q) := dif_pos k.isLt

theorem sum_tileRow (gi : Fin 4) (a : Fin 1024) :
    ∑ k : Fin 8, tileRow g p gi a k.val = rowSum (simMul g p) (row gi a) := by
  unfold rowSum
  rw [← sum_col_tiles (fun j => simMul g p (row gi a) j)]
  exact Finset.sum_congr rfl fun k _ => tileRow_of_lt g p gi a k

def rowArr : Vec Ideal S4096x1 .f32 := fun i => rowSum (simMul g p) (i 0)

theorem rowArr_apply (i : Fin 4096) : rowArr g p (ix2 i (0 : Fin 1)) = rowSum (simMul g p) i := rfl

variable (V : (c : Dev nD) → (b : Ref sig .tc) → Buf (Elt Ideal) ((c : Thread nD τ).loc b)) (c : Dev nD)

theorem rowAt0_congr (n n' : ℕ) (hn : n < cfg0.N) (hn' : n' < cfg0.N) (e : n = n') :
    rowAt0 V c n hn = rowAt0 V c n' hn' := by
  subst e; rfl

variable (hg : ∀ i d, garr V c (ix2 i d) = g i d) (ht : ∀ j d, tarr V c (ix2 j d) = tgt g p j d)

include hg ht in
theorem step_apply (t : Fin cfg0.N) (gi : Fin 4) (kj : Fin 8) (hgi : t.val / 8 = gi.val) (hkj : t.val % 8 = kj.val)
    (acc : Vec Ideal S1024x1 .f32) (a : Fin 1024) :
    k0_pay1 (F := Ideal) (simAt0 V c t) acc (ix2 a (0 : Fin 1)) = acc (ix2 a (0 : Fin 1)) + tileRow g p gi a kj.val := by
  rw [Pay0.pay1_apply, tileRow_of_lt]
  exact congrArg (acc (ix2 a (0 : Fin 1)) + ·)
    (Finset.sum_congr rfl fun q _ => simAt0_apply g p V c hg ht t gi kj hgi hkj a q)

include hg ht in
theorem rowAt0_run (gi : Fin 4) : ∀ (kj : ℕ) (hk : kj < 8) (hn : gi.val * 8 + kj < cfg0.N) (a : Fin 1024),
    rowAt0 V c (gi.val * 8 + kj) hn (ix2 a (0 : Fin 1)) = runSum (tileRow g p gi a) kj
  | 0, hk, hn, a => by
    have hgi := gi.isLt
    have h0 := rowAt0_first V c ⟨gi.val * 8 + 0, hn⟩ (by show (gi.val * 8 + 0) % 8 = 0; omega)
    refine (congrFun h0 (ix2 a (0 : Fin 1))).trans ?_
    rw [step_apply g p V c hg ht ⟨gi.val * 8 + 0, hn⟩ gi ⟨0, hk⟩ (by show (gi.val * 8 + 0) / 8 = gi.val; omega)
      (by show (gi.val * 8 + 0) % 8 = 0; omega) _ a, Pay0.pay4_apply]
    rfl
  | kj + 1, hk, hn, a => by
    have hgi := gi.isLt
    have h1 := rowAt0_next V c ⟨gi.val * 8 + (kj + 1), hn⟩ (by show ¬ (gi.val * 8 + (kj + 1)) % 8 = 0; omega)
    refine (congrFun h1 (ix2 a (0 : Fin 1))).trans ?_
    rw [step_apply g p V c hg ht ⟨gi.val * 8 + (kj + 1), hn⟩ gi ⟨kj + 1, hk⟩
      (by show (gi.val * 8 + (kj + 1)) / 8 = gi.val; omega) (by show (gi.val * 8 + (kj + 1)) % 8 = kj + 1; omega) _ a]
    have hn' : gi.val * 8 + kj < cfg0.N := by omega
    rw [rowAt0_congr V c _ (gi.val * 8 + kj) _ hn' (by show gi.val * 8 + (kj + 1) - 1 = gi.val * 8 + kj; omega),
      rowAt0_run gi kj (by omega) hn' a]
    rfl

include hg ht in
theorem flushed3_eq (t : Fin cfg0.N) (hf : (cfg0.win 3).flush t = true) :
    (dat0 V c).flushed 3 t = ((cfg0.win 3).blk t).view.read (Elt Ideal) (rowArr g p) := by
  have hN : cfg0.N = 32 := N_0
  have htl : t.val < 32 := hN ▸ t.isLt
  have h7 : t.val % 8 = 7 := (flush0_3 t).mp hf
  show (cfg0.win 3).cut (grid0.coords t) ((dat0 V c).after 3 t) = _
  rw [after0_3]
  funext j
  obtain ⟨a, u, rfl⟩ : ∃ (a : Fin 1024) (u : Fin 1), j = ix2 a u := ⟨j 0, j 1, eq_ix2 j⟩
  obtain rfl : u = 0 := Subsingleton.elim _ _
  show rowAt0 V c t.val t.isLt (ix2 a (0 : Fin 1)) = rowArr g p (((cfg0.win 3).blk t).view.emb (ix2 a (0 : Fin 1)))
  have hn' : (⟨t.val / 8, by omega⟩ : Fin 4).val * 8 + 7 < cfg0.N := by show t.val / 8 * 8 + 7 < cfg0.N; omega
  rw [emb3 t ⟨t.val / 8, by omega⟩ rfl a, rowArr_apply,
    rowAt0_congr V c t.val ((⟨t.val / 8, by omega⟩ : Fin 4).val * 8 + 7) t.isLt hn' (by show t.val = t.val / 8 * 8 + 7; omega),
    rowAt0_run g p V c hg ht ⟨t.val / 8, by omega⟩ 7 (by omega) hn' a, runSum_seven]
  exact sum_tileRow g p _ a

theorem mem_blk3 (t : Fin cfg0.N) (i : S4096x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v1_1).slice (win0_3.rect t)).set ↔ _
  rw [View.set_slice_whole, Rect.mem_set_unit]
  exact Iff.rfl

theorem cover3 (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 32 := N_0
  obtain ⟨t, htv⟩ : ∃ t : Fin cfg0.N, t.val = (i 0).val / 1024 * 8 + 7 :=
    ⟨⟨(i 0).val / 1024 * 8 + 7, by rw [hN]; omega⟩, rfl⟩
  obtain ⟨-, -, -, -, -, -, e0, e1, -⟩ := idx_facts t
  refine ⟨t, (flush0_3 t).mpr (by omega), ?_⟩
  rw [mem_blk3]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 1 ≤ (i 1).val ∧ (i 1).val < win0_3.index t (1 : Fin 2) * 1 + 1
    rw [e1]; omega

include hg ht in
theorem rowsum_array : (dat0 V c).arrAt 3 cfg0.N = rowArr g p :=
  (dat0 V c).arrAt_eq_of_cover 3 (rowArr g p) (fun t hf => flushed3_eq g p V c hg ht t hf) cover3

include hg ht in
theorem rowsum_final (i : Fin 4096) :
    (dat0 V c).arrAt 3 cfg0.N (ix2 i (0 : Fin 1)) = rowSum (simMul g p) i :=
  congrFun (rowsum_array g p V c hg ht) (ix2 i (0 : Fin 1))

end Cert.KernelIdeal.Val

end
-- ==== Proof.Val0Col.lean ====
import proofs.«405954_j50337016709322_3_alg».proof.Proof.Val0Sim
import proofs.«405954_j50337016709322_3_alg».proof.Proof.Pay0Sums

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.BiNorm

variable (g p : Mat 4096 512)

def colArr : Vec Ideal S4x1x8192 .f32 := fun i => ∑ q : Fin 1024, simMul g p (row (i 0) q) (i 2)

theorem colArr_apply (k : Fin 4) (j : Fin 8192) :
    colArr g p (ix3 k (0 : Fin 1) j) = ∑ q : Fin 1024, simMul g p (row k q) j := rfl

variable (V : (c : Dev nD) → (b : Ref sig .tc) → Buf (Elt Ideal) ((c : Thread nD τ).loc b)) (c : Dev nD)
variable (hg : ∀ i d, garr V c (ix2 i d) = g i d) (ht : ∀ j d, tarr V c (ix2 j d) = tgt g p j d)

include hg ht in
theorem flushed4_eq (t : Fin cfg0.N) :
    (dat0 V c).flushed 4 t = ((cfg0.win 4).blk t).view.read (Elt Ideal) (colArr g p) := by
  have hN : cfg0.N = 32 := N_0
  have htl : t.val < 32 := hN ▸ t.isLt
  show (cfg0.win 4).cut (grid0.coords t) ((dat0 V c).after 4 t) = _
  rw [after0_4]
  funext j
  obtain ⟨u, v, b, rfl⟩ : ∃ (u v : Fin 1) (b : Fin 1024), j = ix3 u v b := ⟨j 0, j 1, j 2, eq_ix3 j⟩
  obtain rfl : u = 0 := Subsingleton.elim _ _
  obtain rfl : v = 0 := Subsingleton.elim _ _
  show k0_pay2 (F := Ideal) (simAt0 V c t) (ix3 0 0 b) = colArr g p (((cfg0.win 4).blk t).view.emb (ix3 0 0 b))
  rw [emb4 t ⟨t.val / 8, by omega⟩ ⟨t.val % 8, by omega⟩ rfl rfl b, colArr_apply, Pay0.pay2_apply]
  exact Finset.sum_congr rfl fun a _ => simAt0_apply g p V c hg ht t _ _ rfl rfl a b

theorem mem_blk4 (t : Fin cfg0.N) (i : S4x1x8192.Idx) :
    i ∈ ((cfg0.win 4).blk t).view.set ↔ ∀ a : Fin 3, win0_4.index t a * S1x1x1024.size a ≤ (i a).val
      ∧ (i a).val < win0_4.index t a * S1x1x1024.size a + S1x1x1024.size a := by
  show i ∈ ((View.whole main_v1_2).slice (win0_4.rect t)).set ↔ _
  rw [View.set_slice_whole, Rect.mem_set_unit]
  exact Iff.rfl

theorem cover4 (i : S4x1x8192.Idx) :
    ∃ t : Fin cfg0.N, (cfg0.win 4).flush t = true ∧ i ∈ ((cfg0.win 4).blk t).view.set := by
  have hi0 : (i 0).val < 4 := (i 0).isLt
  have hi1 : (i 1).val < 1 := (i 1).isLt
  have hi2 : (i 2).val < 8192 := (i 2).isLt
  have hN : cfg0.N = 32 := N_0
  obtain ⟨t, htv⟩ : ∃ t : Fin cfg0.N, t.val = (i 0).val * 8 + (i 2).val / 1024 :=
    ⟨⟨(i 0).val * 8 + (i 2).val / 1024, by rw [hN]; omega⟩, rfl⟩
  obtain ⟨-, -, -, -, -, -, -, -, e0, e1, e2⟩ := idx_facts t
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    rw [e0]; omega
  | ⟨1, _⟩ =>
    show win0_4.index t (1 : Fin 3) * 1 ≤ (i 1).val ∧ (i 1).val < win0_4.index t (1 : Fin 3) * 1 + 1
    rw [e1]; omega
  | ⟨2, _⟩ =>
    show win0_4.index t (2 : Fin 3) * 1024 ≤ (i 2).val ∧ (i 2).val < win0_4.index t (2 : Fin 3) * 1024 + 1024
    rw [e2]; omega

include hg ht in
theorem colpart_array : (dat0 V c).arrAt 4 cfg0.N = colArr g p :=
  (dat0 V c).arrAt_eq_of_cover 4 (colArr g p) (fun t _ => flushed4_eq g p V c hg ht t) cover4

include hg ht in
theorem colpart_final (k : Fin 4) (j : Fin 8192) :
    (dat0 V c).arrAt 4 cfg0.N (ix3 k (0 : Fin 1) j) = ∑ q : Fin 1024, simMul g p (row k q) j :=
  congrFun (colpart_array g p V c hg ht) (ix3 k (0 : Fin 1) j)

end Cert.KernelIdeal.Val

end
-- ==== Proof.Val0.lean ====
import proofs.«405954_j50337016709322_3_alg».proof.Proof.Val0Sim
import proofs.«405954_j50337016709322_3_alg».proof.Proof.Val0Row
import proofs.«405954_j50337016709322_3_alg».proof.Proof.Val0Col
-- ==== Proof.Entry.lean ====
import proofs.«405954_j50337016709322_3_alg».proof.Proof.HostGlue
import proofs.«405954_j50337016709322_3_alg».proof.Proof.HostRead
import proofs.«405954_j50337016709322_3_alg».proof.Proof.Half0Inst
import proofs.«405954_j50337016709322_3_alg».proof.Proof.Val0
import proofs.«405954_j50337016709322_3_alg».proof.Proof.TileSums

noncomputable section

open scoped BigOperators

namespace Cert.KernelIdeal.Entry

open Cert.KernelIdeal Cert.KernelIdeal.Gen Cert.KernelIdeal.Hand
open Idealize.ShloMosaic Idealize.ShloMosaic.TcCoe Idealize.ShloMosaic.ValueIdx
open Idealize.SL.Sem
open Cert.BiNorm

variable (m : (ℓ : Loc nD τ sig) → Buf (Elt Ideal) ℓ) (ρ : Dev nD → PrngReg) (c : Dev nD)

abbrev gIn : Mat 4096 512 := HostRead.mat (m ((c : Thread nD τ).loc main_arg0) : Vec Ideal S4096x512 .f32)
abbrev pIn : Mat 4096 512 := HostRead.mat (m ((c : Thread nD τ).loc main_arg1) : Vec Ideal S4096x512 .f32)

theorem first_g (i : Fin 4096) (d : Fin 512) : Val.garr (T1 m ρ) c (ix2 i d) = gIn m c i d := by
  show (T1 m ρ c main_arg0 : Vec Ideal S4096x512 .f32) (ix2 i d) = _
  rw [T1_main_arg0 m ρ c]

theorem first_t (j : Fin 8192) (d : Fin 512) : Val.tarr (T1 m ρ) c (ix2 j d) = tgt (gIn m c) (pIn m c) j d := by
  show (T1 m ρ c main_v0 : Vec Ideal S8192x512 .f32) (ix2 j d) = _
  rw [T1_main_v0 m ρ c]
  exact HostRead.targets_read _ _ j d

abbrev h0 : Half0 (T1 m ρ) := half0 (T1 m ρ)

theorem second_t (j : Fin 8192) (d : Fin 512) :
    (T3 m ρ (h0 m ρ) c main_v0 : Vec Ideal S8192x512 .f32) (ix2 j d) = tgt (gIn m c) (pIn m c) j d := by
  rw [T3_main_v0 m ρ (h0 m ρ) c]
  exact first_t m ρ c j d

theorem second_sim (i : Fin 4096) (j : Fin 8192) :
    (T3 m ρ (h0 m ρ) c main_v1_0 : Vec Ideal S4096x8192 .f32) (ix2 i j) = simMul (gIn m c) (pIn m c) i j := by
  rw [T3_main_v1_0 m ρ (h0 m ρ) c]
  exact Val.sim_final (gIn m c) (pIn m c) (T1 m ρ) c (first_g m ρ c) (first_t m ρ c) i j

theorem second_rows (i : Fin 4096) :
    (T3 m ρ (h0 m ρ) c main_v1_1 : Vec Ideal S4096x1 .f32) (ix2 i (0 : Fin 1)) = rowSum (simMul (gIn m c) (pIn m c)) i := by
  rw [T3_main_v1_1 m ρ (h0 m ρ) c]
  exact Val.rowsum_final (gIn m c) (pIn m c) (T1 m ρ) c (first_g m ρ c) (first_t m ρ c) i

theorem second_cols (j : Fin 8192) :
    (T3 m ρ (h0 m ρ) c main_v2 : Vec Ideal S1x8192 .f32) (ix2 (0 : Fin 1) j) = colSum (simMul (gIn m c) (pIn m c)) j := by
  have e : (T3 m ρ (h0 m ρ) c main_v2 : Vec Ideal S1x8192 .f32)
      = Host.reduceAdd (F := Ideal) (((h0 m ρ).dat c).arrAt 4 cfg0.N : Vec Ideal S4x1x8192 .f32) (constant S_ .f32 0x00000000#32)
          reducesTo_S4x1x8192_S1x8192_d0 h_S_ := T3_main_v2 m ρ (h0 m ρ) c
  rw [e]
  refine (HostRead.tilesum_read _ j).trans ?_
  unfold colSum
  rw [← sum_row_tiles (fun i => simMul (gIn m c) (pIn m c) i j)]
  exact Finset.sum_congr rfl fun k _ =>
    Val.colpart_final (gIn m c) (pIn m c) (T1 m ρ) c (first_g m ρ c) (first_t m ρ c) k j

end Cert.KernelIdeal.Entry

end
-- ==== Proof.R1Base.lean ====
/- The second pallas_call: its branch conditions over the 4 x 8 grid, the buffers its body is called with, and its invariant's resources. -/
import proofs.«405954_j50337016709322_3_alg».proof.Proof.Stores

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The five input windows are live at every point. -/
theorem liveAt1 : ∀ w : Fin cfg1.W, w.val < 5 → ∀ t : Fin cfg1.N, cfg1.idle w (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8192 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x512 .f32 := Memref.whole cc1_scratch2
abbrev scM1_3 : Memref sig .tc .vmem S1024x512 .f32 := Memref.whole cc1_scratch3

/-- The four accumulators the kernel carries along a grid row. -/
abbrev Acc1 (F : FTy → Type) : Type := Vec F S1024x1 .f32 × Vec F S1024x1 .f32 × Vec F S1024x512 .f32 × Vec F S1024x512 .f32

section Bufs
variable (c : Dev nD) (a0 a1 : Memref sig .tc .vmem S1024x1 .f32) (a2 a3 : Memref sig .tc .vmem S1024x512 .f32)

/-- The accumulator buffers hold `p`. -/
def accs1 (p : Acc1 F) : sProp 𝕄 :=
  iprop(owns (c : Thread nD τ) a0 fullShare p.1 ∗ owns (c : Thread nD τ) a1 fullShare p.2.1 ∗ owns (c : Thread nD τ) a2 fullShare p.2.2.1 ∗ owns (c : Thread nD τ) a3 fullShare p.2.2.2)

/-- The accumulator buffers hold anything. -/
def accsAny1 : sProp 𝕄 :=
  iprop((∃ d, owns (c : Thread nD τ) a0 fullShare d) ∗ (∃ d, owns (c : Thread nD τ) a1 fullShare d) ∗ (∃ d, owns (c : Thread nD τ) a2 fullShare d) ∗ (∃ d, owns (c : Thread nD τ) a3 fullShare d))

theorem accs1_any (p : Acc1 F) : accs1 c a0 a1 a2 a3 p ⊢ accsAny1 (F := F) c a0 a1 a2 a3 := by
  unfold accs1 accsAny1
  iintro ⟨H0, H1, H2, H3⟩
  isplitl [H0]; · iexists _; iexact H0
  isplitl [H1]; · iexists _; iexact H1
  isplitl [H2]; · iexists _; iexact H2
  iexists _; iexact H3

/-- The six windows' buffers hold the point's blocks. -/
def ins1 (m0 m1 : Memref sig .tc .vmem S1024x512 .f32) (m2 : Memref sig .tc .vmem S1024x1024 .f32) (m3 : Memref sig .tc .vmem S1024x1 .f32) (m4 : Memref sig .tc .vmem S1x8192 .f32) (m5 : Memref sig .tc .vmem S1024x512 .f32)
    (x0 x1 : Vec F S1024x512 .f32) (x2 : Vec F S1024x1024 .f32) (x3 : Vec F S1024x1 .f32) (x4 : Vec F S1x8192 .f32) (x5 : Vec F S1024x512 .f32) : sProp 𝕄 :=
  iprop(owns (c : Thread nD τ) m0 fullShare x0 ∗ owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5)

end Bufs

/-- The first pallas_call's buffers, which this one never touches, each at some contents, beside `P`. -/
def stgRest1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ P)

theorem PhiA1_eq (c : Dev nD) :
    (Pipeline.ΦA spec1 c : sProp 𝕄)
      = iprop(stgRest1 (F := F) c (accsAny1 c scM1_0 scM1_1 scM1_2 scM1_3) ∗ (∃ r, prngReg c r)) := by
  unfold Pipeline.ΦA stgRest1 accsAny1; rw [scopedRest1_eq]; simp only [scM1_0, scM1_1, scM1_2, scM1_3, owns_whole]; try rfl

end Cert.KernelIdeal.Hand

end
-- ==== Proof.R1Dat.lean ====
/- The second pallas_call: the accumulators' contents point by point, the invariant that carries them, and the pipeline's proof data. -/
import proofs.«405954_j50337016709322_3_alg».proof.Proof.R1Base

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev csRect1 (i : grid1.Coords) : Rect S1x8192 := Rect.unit (s := S1x8192) (k1_off1 i) S1x1024.size (k1_off1_inb i)

def scZero1 : Acc1 F :=
  (k1_pay9, k1_pay10, k1_pay11, k1_pay12)

/-- One point's update of the accumulators from the point's blocks. -/
def scStep1 (i : grid1.Coords) (x1 : Vec F S1024x512 .f32) (x2 : Vec F S1024x1024 .f32) (x3 : Vec F S1024x1 .f32) (cs : Vec F S1x1024 .f32)
    (p : Acc1 F) : Acc1 F :=
  (k1_pay13 i x2 x3 cs p.1, k1_pay1 (k1_pay14 i x2 x3 cs p.2.1),
   k1_pay3 (k1_pay6 x1) (k1_pay7 x2 x3 cs) (Scalar.cmpi .slt (BitVec.ofNat 32 (i 1).val) 4#32) p.2.2.1,
   k1_pay4 (k1_pay6 x1) (k1_pay7 x2 x3 cs) (Scalar.cmpi .slt (BitVec.ofNat 32 (i 1).val) 4#32) p.2.2.2)

def scStepAt1 (c : Dev nD) (t : Fin cfg1.N) (p : Acc1 F) : Acc1 F :=
  scStep1 (grid1.coords t) (iblk1 V c 1 t) (iblk1 V c 2 t) (iblk1 V c 3 t) (View.ld (iblk1 V c 4 t) (csRect1 (grid1.coords t))) p

/-- The accumulators after the point at position `n`: reset where a grid row begins. -/
def scAt1 (c : Dev nD) : (n : ℕ) → n < cfg1.N → Acc1 F
  | 0, hn => scStepAt1 V c ⟨0, hn⟩ scZero1
  | n + 1, hn => scStepAt1 V c ⟨n + 1, hn⟩ (if (n + 1) % 8 = 0 then scZero1 else scAt1 c n (Nat.lt_of_succ_lt hn))

theorem scAt1_first (c : Dev nD) (t : Fin cfg1.N) (h : t.val % 8 = 0) :
    scAt1 V c t.val t.isLt = scStepAt1 V c t scZero1 := by
  obtain ⟨n, hn⟩ := t
  cases n with
  | zero => rfl
  | succ n => exact congrArg (scStepAt1 V c ⟨n + 1, hn⟩) (if_pos h)

theorem scAt1_next (c : Dev nD) (t : Fin cfg1.N) (h : ¬t.val % 8 = 0) :
    scAt1 V c t.val t.isLt = scStepAt1 V c t (scAt1 V c (t.val - 1) (Nat.lt_of_le_of_lt (Nat.sub_le _ _) t.isLt)) := by
  obtain ⟨n, hn⟩ := t
  cases n with
  | zero => exact absurd (Nat.zero_mod _) h
  | succ n => exact congrArg (scStepAt1 V c ⟨n + 1, hn⟩) (if_neg h)

def out1_5 (p : Acc1 F) : Vec F S1024x512 .f32 :=
  k1_pay5 p.1 p.2.2.1 p.2.1 p.2.2.2

/-- Before position `n` the accumulators hold what position `n - 1` left. -/
def PhiS1 (c : Dev nD) : (n : ℕ) → n ≤ cfg1.N → sProp 𝕄
  | 0, _ => Pipeline.ΦA spec1 c
  | n + 1, hn => iprop(stgRest1 (F := F) c (accs1 c scM1_0 scM1_1 scM1_2 scM1_3 (scAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(stgRest1 (F := F) c (accs1 c scM1_0 scM1_1 scM1_2 scM1_3 (scAt1 V c n hn)) ∗ (∃ r, prngReg c r)) := rfl

theorem PhiS1_pos (c : Dev nD) (n : ℕ) (h : n ≤ cfg1.N) (hz : n ≠ 0) :
    PhiS1 V c n h = iprop(stgRest1 (F := F) c (accs1 c scM1_0 scM1_1 scM1_2 scM1_3 (scAt1 V c (n - 1) (by omega))) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (scAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (scAt1 V c t.val t.isLt) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

end Region

end Cert.KernelIdeal.Hand

end
-- ==== Proof.R1RunA.lean ====
/- The second kernel's body where a grid row begins: the accumulators are zeroed, then updated. -/
import proofs.«405954_j50337016709322_3_alg».proof.Proof.R1Dat

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
section
variable (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x512 .f32) (harg10 : arg10.IsWhole) (arg11 : Memref sig .tc .vmem S1024x512 .f32) (harg11 : arg11.IsWhole)
  (x0 x1 : Vec F S1024x512 .f32) (x2 : Vec F S1024x1024 .f32) (x3 : Vec F S1024x1 .f32) (x4 : Vec F S1x8192 .f32)

set_option maxHeartbeats 1000000 in
theorem run1_A (hc0 : cond1_0 i) (hc1 : ¬cond1_1 i) (x5 : Vec F S1024x512 .f32) (E : Set ℕ) (K : PUnit → sProp 𝕄) :
    iprop((ins1 c arg2 arg3 arg4 arg5 arg6 arg7 x0 x1 x2 x3 x4 x5 ∗ accsAny1 c arg8 arg9 arg10 arg11) ∗ ((ins1 c arg2 arg3 arg4 arg5 arg6 arg7 x0 x1 x2 x3 x4 x5 ∗ accs1 c arg8 arg9 arg10 arg11 (scStep1 i x1 x2 x3 (View.ld x4 (csRect1 i)) scZero1)) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
  simp only [cc1_kernel_eq_skeleton]; unfold cc1_kernel_skel
  simp only [k1_part1_eq_skeleton]
  unfold ins1 accs1 accsAny1 owns
  iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%ds0, %fs0, -, HS0⟩, ⟨%ds1, %fs1, -, HS1⟩, ⟨%ds2, %fs2, -, HS2⟩, ⟨%ds3, %fs3, -, HS3⟩⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitr [HS0 HS1 HS2 HS3]
  · isplitl [H0]; · iapply kept c harg2; iexact H0
    isplitl [H1]; · iapply kept c harg3; iexact H1
    isplitl [H2]; · iapply kept c harg4; iexact H2
    isplitl [H3]; · iapply kept c harg5; iexact H3
    isplitl [H4]; · iapply kept c harg6; iexact H4
    iapply kept c harg7; iexact H5
  isplitl [HS0]
  · iapply stored c hz2 ?_
    swap; · iexact HS0
    sl_unfold_words
    simp only [View.readAt_eq_ld, Memref.IsWhole.read_unread, ld512, ld1024, ld1, rc1, rc512]
    try rfl
  isplitl [HS1]
  · iapply stored c hz2 ?_
    swap; · iexact HS1
    sl_unfold_words
    simp only [View.readAt_eq_ld, Memref.IsWhole.read_unread, ld512, ld1024, ld1, rc1, rc512]
    try rfl
  isplitl [HS2]
  · iapply stored c hz2 ?_
    swap; · iexact HS2
    sl_unfold_words
    simp only [View.readAt_eq_ld, Memref.IsWhole.read_unread, ld512, ld1024, ld1, rc1, rc512]
    try rfl
  iapply stored c hz2 ?_
  swap; · iexact HS3
  sl_unfold_words
  simp only [View.readAt_eq_ld, Memref.IsWhole.read_unread, ld512, ld1024, ld1, rc1, rc512]
  try rfl

end

end Cert.KernelIdeal.Hand

end
-- ==== Proof.R1RunB.lean ====
/- The second kernel's body inside a grid row: the accumulators are updated. -/
import proofs.«405954_j50337016709322_3_alg».proof.Proof.R1Dat

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
section
variable (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x512 .f32) (harg10 : arg10.IsWhole) (arg11 : Memref sig .tc .vmem S1024x512 .f32) (harg11 : arg11.IsWhole)
  (x0 x1 : Vec F S1024x512 .f32) (x2 : Vec F S1024x1024 .f32) (x3 : Vec F S1024x1 .f32) (x4 : Vec F S1x8192 .f32)

set_option maxHeartbeats 1000000 in
theorem run1_B (hc0 : ¬cond1_0 i) (hc1 : ¬cond1_1 i) (x5 : Vec F S1024x512 .f32) (p : Acc1 F) (E : Set ℕ) (K : PUnit → sProp 𝕄) :
    iprop((ins1 c arg2 arg3 arg4 arg5 arg6 arg7 x0 x1 x2 x3 x4 x5 ∗ accs1 c arg8 arg9 arg10 arg11 p) ∗ ((ins1 c arg2 arg3 arg4 arg5 arg6 arg7 x0 x1 x2 x3 x4 x5 ∗ accs1 c arg8 arg9 arg10 arg11 (scStep1 i x1 x2 x3 (View.ld x4 (csRect1 i)) p)) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
  simp only [cc1_kernel_eq_skeleton]; unfold cc1_kernel_skel
  simp only [k1_part1_eq_skeleton]
  unfold ins1 accs1 owns
  iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%fs0, %hfs0, HS0⟩, ⟨%fs1, %hfs1, HS1⟩, ⟨%fs2, %hfs2, HS2⟩, ⟨%fs3, %hfs3, HS3⟩⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs0; obtain rfl := harg9.eq_unread hfs1; obtain rfl := harg10.eq_unread hfs2; obtain rfl := harg11.eq_unread hfs3
  sl_exec (disch := first | exact hc0 | exact hc1)
  sl_step
  iapply Hk
  isplitr [HS0 HS1 HS2 HS3]
  · isplitl [H0]; · iapply kept c harg2; iexact H0
    isplitl [H1]; · iapply kept c harg3; iexact H1
    isplitl [H2]; · iapply kept c harg4; iexact H2
    isplitl [H3]; · iapply kept c harg5; iexact H3
    isplitl [H4]; · iapply kept c harg6; iexact H4
    iapply kept c harg7; iexact H5
  isplitl [HS0]
  · iapply stored c hz2 ?_
    swap; · iexact HS0
    sl_unfold_words
    simp only [View.readAt_eq_ld, Memref.IsWhole.read_unread, ld512, ld1024, ld1, rc1, rc512]
    try rfl
  isplitl [HS1]
  · iapply stored c hz2 ?_
    swap; · iexact HS1
    sl_unfold_words
    simp only [View.readAt_eq_ld, Memref.IsWhole.read_unread, ld512, ld1024, ld1, rc1, rc512]
    try rfl
  isplitl [HS2]
  · iapply stored c hz2 ?_
    swap; · iexact HS2
    sl_unfold_words
    simp only [View.readAt_eq_ld, Memref.IsWhole.read_unread, ld512, ld1024, ld1, rc1, rc512]
    try rfl
  iapply stored c hz2 ?_
  swap; · iexact HS3
  sl_unfold_words
  simp only [View.readAt_eq_ld, Memref.IsWhole.read_unread, ld512, ld1024, ld1, rc1, rc512]
  try rfl

end

end Cert.KernelIdeal.Hand

end
-- ==== Proof.R1RunC.lean ====
/- The second kernel's body where a grid row ends: the accumulators are updated, then combined into the output block. -/
import proofs.«405954_j50337016709322_3_alg».proof.Proof.R1Dat

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
section
variable (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x8192 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x512 .f32) (harg10 : arg10.IsWhole) (arg11 : Memref sig .tc .vmem S1024x512 .f32) (harg11 : arg11.IsWhole)
  (x0 x1 : Vec F S1024x512 .f32) (x2 : Vec F S1024x1024 .f32) (x3 : Vec F S1024x1 .f32) (x4 : Vec F S1x8192 .f32)

set_option maxHeartbeats 1000000 in
theorem run1_C (hc0 : ¬cond1_0 i) (hc1 : cond1_1 i) (x5 : Vec F S1024x512 .f32) (p : Acc1 F) (E : Set ℕ) (K : PUnit → sProp 𝕄) :
    iprop((ins1 c arg2 arg3 arg4 arg5 arg6 arg7 x0 x1 x2 x3 x4 x5 ∗ accs1 c arg8 arg9 arg10 arg11 p) ∗ ((ins1 c arg2 arg3 arg4 arg5 arg6 arg7 x0 x1 x2 x3 x4 (out1_5 (scStep1 i x1 x2 x3 (View.ld x4 (csRect1 i)) p)) ∗ accs1 c arg8 arg9 arg10 arg11 (scStep1 i x1 x2 x3 (View.ld x4 (csRect1 i)) p)) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
  simp only [cc1_kernel_eq_skeleton]; unfold cc1_kernel_skel
  simp only [k1_part1_eq_skeleton]
  unfold ins1 accs1 owns
  iintro ⟨⟨⟨⟨%f0, %hf0, H0⟩, ⟨%f1, %hf1, H1⟩, ⟨%f2, %hf2, H2⟩, ⟨%f3, %hf3, H3⟩, ⟨%f4, %hf4, H4⟩, ⟨%f5, -, H5⟩⟩, ⟨⟨%fs0, %hfs0, HS0⟩, ⟨%fs1, %hfs1, HS1⟩, ⟨%fs2, %hfs2, HS2⟩, ⟨%fs3, %hfs3, HS3⟩⟩⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs0; obtain rfl := harg9.eq_unread hfs1; obtain rfl := harg10.eq_unread hfs2; obtain rfl := harg11.eq_unread hfs3
  sl_exec (disch := first | exact hc0 | exact hc1)
  sl_step
  iapply Hk
  isplitr [HS0 HS1 HS2 HS3]
  · isplitl [H0]; · iapply kept c harg2; iexact H0
    isplitl [H1]; · iapply kept c harg3; iexact H1
    isplitl [H2]; · iapply kept c harg4; iexact H2
    isplitl [H3]; · iapply kept c harg5; iexact H3
    isplitl [H4]; · iapply kept c harg6; iexact H4
    iapply stored c hz2 ?_
    swap; · iexact H5
    sl_unfold_words
    simp only [View.readAt_eq_ld, Memref.IsWhole.read_unread, ld512, ld1024, ld1, rc1, rc512]
    try rfl
  isplitl [HS0]
  · iapply stored c hz2 ?_
    swap; · iexact HS0
    sl_unfold_words
    simp only [View.readAt_eq_ld, Memref.IsWhole.read_unread, ld512, ld1024, ld1, rc1, rc512]
    try rfl
  isplitl [HS1]
  · iapply stored c hz2 ?_
    swap; · iexact HS1
    sl_unfold_words
    simp only [View.readAt_eq_ld, Memref.IsWhole.read_unread, ld512, ld1024, ld1, rc1, rc512]
    try rfl
  isplitl [HS2]
  · iapply stored c hz2 ?_
    swap; · iexact HS2
    sl_unfold_words
    simp only [View.readAt_eq_ld, Memref.IsWhole.read_unread, ld512, ld1024, ld1, rc1, rc512]
    try rfl
  iapply stored c hz2 ?_
  swap; · iexact HS3
  sl_unfold_words
  simp only [View.readAt_eq_ld, Memref.IsWhole.read_unread, ld512, ld1024, ld1, rc1, rc512]
  try rfl

end

end Cert.KernelIdeal.Hand

end
-- ==== Proof.R1Frame.lean ====
/- The second pallas_call's body obligation at every point, and its invariant at the call's two ends. -/
import proofs.«405954_j50337016709322_3_alg».proof.Proof.R1RunA
import proofs.«405954_j50337016709322_3_alg».proof.Proof.R1RunB
import proofs.«405954_j50337016709322_3_alg».proof.Proof.R1RunC

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
section Region
variable (V : (c : Dev nD) → (b : Ref sig .tc) → Buf (Elt F) ((c : Thread nD τ).loc b))

/-- What the six windows' buffers hold before the body at point `t`. -/
def winsBefore1 (c : Dev nD) (t : Fin cfg1.N) : sProp 𝕄 :=
  iprop((∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPre1 (c : Dev nD) (t : Fin cfg1.N) : sProp 𝕄 :=
  iprop((dat1 V c).Φ t.castSucc ∗ (dat1 V c).owesAt () t.castSucc ∗ winsBefore1 V c t)

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- The body obligation at a point from the body's run there: the buffers this call never touches and the rest of the
    invariant ride along, and the output window's buffer ends at `g` of what it held. -/
theorem body1_of_run (c : Dev nD) (t : Fin cfg1.N) (Pacc R Q5 : sProp 𝕄) (g : Vec F S1024x512 .f32 → Vec F S1024x512 .f32) (p' : Acc1 F)
    (hrun : ∀ (x5 : Vec F S1024x512 .f32) (K : PUnit → sProp 𝕄),
      iprop((ins1 c (ms1_0 t) (ms1_1 t) (ms1_2 t) (ms1_3 t) (ms1_4 t) (ms1_5 t) (iblk1 V c 0 t) (iblk1 V c 1 t) (iblk1 V c 2 t) (iblk1 V c 3 t) (iblk1 V c 4 t) x5 ∗ Pacc) ∗ ((ins1 c (ms1_0 t) (ms1_1 t) (ms1_2 t) (ms1_3 t) (ms1_4 t) (ms1_5 t) (iblk1 V c 0 t) (iblk1 V c 1 t) (iblk1 V c 2 t) (iblk1 V c 3 t) (iblk1 V c 4 t) (g x5) ∗ accs1 c scM1_0 scM1_1 scM1_2 scM1_3 p') -∗ K ⟨⟩)) ⊢ wp frame (wpE (defs₀ (F := F)) Variants.none c none) Set.univ (bodyAt1 t) K)
    (hQ : ∀ d, owns (c : Thread nD τ) (ms1_5 t) fullShare (g ((dat1 V c).before 5 t d)) ⊢ Q5) :
    iprop((stgRest1 (F := F) c Pacc ∗ (∃ r, prngReg c r)) ∗ R ∗ winsBefore1 V c t)
      ⊢ wp frame (wpE (defs₀ (F := F)) Variants.none c none) Set.univ (bodyAt1 t) (fun _ => iprop((stgRest1 (F := F) c (accs1 c scM1_0 scM1_1 scM1_2 scM1_3 p') ∗ (∃ r, prngReg c r)) ∗ R
        ∗ owns (c : Thread nD τ) (ms1_0 t) fullShare (iblk1 V c 0 t)
        ∗ owns (c : Thread nD τ) (ms1_1 t) fullShare (iblk1 V c 1 t)
        ∗ owns (c : Thread nD τ) (ms1_2 t) fullShare (iblk1 V c 2 t)
        ∗ owns (c : Thread nD τ) (ms1_3 t) fullShare (iblk1 V c 3 t)
        ∗ owns (c : Thread nD τ) (ms1_4 t) fullShare (iblk1 V c 4 t) ∗ Q5)) := by
  unfold winsBefore1 stgRest1
  simp only [before1_0, before1_1, before1_2, before1_3, before1_4]
  iintro ⟨⟨⟨A0, A1, A2, A3, A4, A5, A6, A7, A8, A9, HS⟩, Hg⟩, Ho, ⟨%d0, H0⟩, ⟨%d1, H1⟩, ⟨%d2, H2⟩, ⟨%d3, H3⟩, ⟨%d4, H4⟩, ⟨%d5, H5⟩⟩
  iapply hrun ((dat1 V c).before 5 t d5) _
  unfold ins1
  isplitl [H0 H1 H2 H3 H4 H5 HS]
  · isplitr [HS]
    · isplitl [H0]; · iexact H0
      isplitl [H1]; · iexact H1
      isplitl [H2]; · iexact H2
      isplitl [H3]; · iexact H3
      isplitl [H4]; · iexact H4
      iexact H5
    iexact HS
  iintro ⟨⟨H0, H1, H2, H3, H4, H5⟩, HS⟩
  isplitl [A0 A1 A2 A3 A4 A5 A6 A7 A8 A9 HS Hg]
  · isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexact HS
    iexact Hg
  isplitl [Ho]; · iexact Ho
  isplitl [H0]; · iexact H0
  isplitl [H1]; · iexact H1
  isplitl [H2]; · iexact H2
  isplitl [H3]; · iexact H3
  isplitl [H4]; · iexact H4
  iapply hQ d5; iexact H5

/-- Whatever the accumulators hold, the invariant gives the call's own. -/
theorem PhiS1_any (c : Dev nD) (n : ℕ) (h : n ≤ cfg1.N) :
    PhiS1 V c n h ⊢ iprop(stgRest1 (F := F) c (accsAny1 c scM1_0 scM1_1 scM1_2 scM1_3) ∗ (∃ r, prngReg c r)) := by
  by_cases hz : n = 0
  · rw [PhiS1_zero V c n h hz, PhiA1_eq]
  rw [PhiS1_pos V c n h hz]
  unfold stgRest1
  iintro ⟨⟨A0, A1, A2, A3, A4, A5, A6, A7, A8, A9, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iapply accs1_any; iexact HS
  iexact Hg

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [show (dat1 V c).owesAt () t.succ = (dat1 V c).owesAt () t.castSucc from rfl,
    show (dat1 V c).Φ t.succ = PhiS1 V c (t.val + 1) t.isLt from rfl, PhiS1_succ, PhiS1_castSucc V c t]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1 0 (by decide) t], after1_0]
  rw [show (dat1 V c).leavesExact 1 t = owns (c : Thread nD τ) (ms1_1 t) fullShare ((dat1 V c).after 1 t) from by
    unfold Dat.leavesExact; rw [liveAt1 1 (by decide) t], after1_1]
  rw [show (dat1 V c).leavesExact 2 t = owns (c : Thread nD τ) (ms1_2 t) fullShare ((dat1 V c).after 2 t) from by
    unfold Dat.leavesExact; rw [liveAt1 2 (by decide) t], after1_2]
  rw [show (dat1 V c).leavesExact 3 t = owns (c : Thread nD τ) (ms1_3 t) fullShare ((dat1 V c).after 3 t) from by
    unfold Dat.leavesExact; rw [liveAt1 3 (by decide) t], after1_3]
  rw [show (dat1 V c).leavesExact 4 t = owns (c : Thread nD τ) (ms1_4 t) fullShare ((dat1 V c).after 4 t) from by
    unfold Dat.leavesExact; rw [liveAt1 4 (by decide) t], after1_4]
  by_cases h0 : t.val % 8 = 0
  · have hc1 : ¬cond1_1 (grid1.coords t) := fun h => by have := (hcond1_1 t).mp h; omega
    rw [Dat.leavesExact_idle (dat1 V c) 5 t (idleAt1_5 t hc1) (noFlush1_5 t hc1), scAt1_first V c t h0]
    exact (sep_mono (PhiS1_any V c _ _) .rfl).trans (body1_of_run V c t _ _ _ id _
      (fun x5 K => run1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) ((hcond1_0 t).mpr h0) hc1 x5 Set.univ K)
      (fun d => by iintro H; iexists d; iexact H))
  have hc0 : ¬cond1_0 (grid1.coords t) := fun h => h0 ((hcond1_0 t).mp h)
  rw [PhiS1_pos V c _ _ (fun h => h0 (by rw [h]))]
  by_cases h1 : t.val % 8 = 7
  · have hc1 : cond1_1 (grid1.coords t) := (hcond1_1 t).mpr h1
    rw [show (dat1 V c).leavesExact 5 t = owns (c : Thread nD τ) (ms1_5 t) fullShare ((dat1 V c).after 5 t) from by
      unfold Dat.leavesExact; rw [liveAt1_5 t hc1], after1_5, scAt1_next V c t h0]
    exact body1_of_run V c t _ _ _ (fun _ => out1_5 (scStepAt1 V c t (scAt1 V c (t.val - 1) (by omega)))) _
      (fun x5 K => run1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) hc0 hc1 x5 _ Set.univ K) (fun _ => .rfl)
  have hc1 : ¬cond1_1 (grid1.coords t) := fun h => h1 ((hcond1_1 t).mp h)
  rw [Dat.leavesExact_idle (dat1 V c) 5 t (idleAt1_5 t hc1) (noFlush1_5 t hc1), scAt1_next V c t h0]
  exact body1_of_run V c t _ _ _ id _ (fun x5 K => run1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) hc0 hc1 x5 _ Set.univ K)
    (fun d => by iintro H; iexists d; iexact H)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [PhiA1_eq]; exact PhiS1_any V c (Fin.last cfg1.N).val (Nat.le_of_lt_succ (Fin.last cfg1.N).isLt)

end Region

end Cert.KernelIdeal.Hand

end
-- ==== Proof.Half1Inst.lean ====
import proofs.«405954_j50337016709322_3_alg».proof.Proof.Half0Inst
import proofs.«405954_j50337016709322_3_alg».proof.Proof.R1Frame

noncomputable section

namespace Cert.KernelIdeal.Hand

open Cert.KernelIdeal Cert.KernelIdeal.Gen
open Idealize.ShloMosaic Idealize.ShloMosaic.TcCoe
open Idealize.SL Idealize.SL.BI
open scoped Idealize.SL.BI
open Idealize.SL.Sem
open Idealize.ShloMosaic.Pipeline (Dat BodyObligation)

variable {F : FTy → Type} [FloatOps F] [Named F]

def half1 (V : Contents F) : Half1 V where
  dat := dat1 V
  A_eq := A_eq1 V
  q_eq := fun _ _ => by dsimp only [dat1]
  owed_eq := fun _ _ => by dsimp only [dat1]
  rec_eq := fun _ _ => by dsimp only [dat1]
  body := body_obligation1 V
  hin := hin1 V
  hout := hout1 V

variable (m : (ℓ : Loc nD τ sig) → Buf (Elt F) ℓ) (ρ : Dev nD → PrngReg)

abbrev first : Half0 (T1 m ρ) := half0 (T1 m ρ)
abbrev second : Half1 (T3 m ρ (first m ρ)) := half1 (T3 m ρ (first m ρ))

theorem run_whole : θ_run defs (onTc (τ := τ) (main (F := F))) ⟨m, fun _ => 0, ρ⟩ (fun r => ∀ c : Dev nD,
      r.2.mem ((c.tc : Thread nD τ).loc main_v3) = (dat1 (T3 m ρ (first m ρ)) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ (first m ρ) (second m ρ)

end Cert.KernelIdeal.Hand

end
-- ==== Proof.Val1Blocks.lean ====
import proofs.«405954_j50337016709322_3_alg».proof.Proof.R1Dat
import Idealize.ShloMosaic.Lib.ValueIdx
import Idealize.ShloMosaic.Lib.Pipeline.Value

set_option maxRecDepth 16384

noncomputable section

namespace Cert.KernelIdeal.Val1

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

abbrev tgtArr (c : Dev nD) : Vec Ideal S8192x512 .f32 := V c main_v0
abbrev simArr (c : Dev nD) : Vec Ideal S4096x8192 .f32 := V c main_v1_0
abbrev rsArr (c : Dev nD) : Vec Ideal S4096x1 .f32 := V c main_v1_1
abbrev csArr (c : Dev nD) : Vec Ideal S1x8192 .f32 := V c main_v2

abbrev tgtBlk (c : Dev nD) (t : Fin cfg1.N) : Vec Ideal S1024x512 .f32 := iblk1 V c 1 t
abbrev simBlk (c : Dev nD) (t : Fin cfg1.N) : Vec Ideal S1024x1024 .f32 := iblk1 V c 2 t
abbrev rsBlk (c : Dev nD) (t : Fin cfg1.N) : Vec Ideal S1024x1 .f32 := iblk1 V c 3 t
abbrev csBlk (c : Dev nD) (t : Fin cfg1.N) : Vec Ideal S1x8192 .f32 := iblk1 V c 4 t

theorem idx_facts1 : ∀ t : Fin cfg1.N,
    win1_1.index t (0 : Fin 2) = t.val % 8 ∧ win1_1.index t (1 : Fin 2) = 0
    ∧ win1_2.index t (0 : Fin 2) = t.val / 8 ∧ win1_2.index t (1 : Fin 2) = t.val % 8
    ∧ win1_3.index t (0 : Fin 2) = t.val / 8 ∧ win1_3.index t (1 : Fin 2) = 0
    ∧ win1_4.index t (0 : Fin 2) = 0 ∧ win1_4.index t (1 : Fin 2) = 0
    ∧ win1_5.index t (0 : Fin 2) = t.val / 8 ∧ win1_5.index t (1 : Fin 2) = 0
    ∧ ((grid1.coords t) 1).val = t.val % 8
    ∧ k1_off1 (grid1.coords t) (0 : Fin 2) = 0 ∧ k1_off1 (grid1.coords t) (1 : Fin 2) = t.val % 8 * 1024 :=
  (by decide +kernel : ∀ t : Fin grid1.N, _)

theorem tgtBlk_apply (c : Dev nD) (t : Fin cfg1.N) (x : S1024x512.Idx) (k : S8192x512.Idx)
    (hk0 : (k 0).val = t.val % 8 * 1024 + (x 0).val) (hk1 : (k 1).val = (x 1).val) :
    tgtBlk V c t x = tgtArr V c k := by
  obtain ⟨e0, e1, -⟩ := idx_facts1 t
  show iblk1 V c 1 t x = V c main_v0 k
  unfold iblk1
  rw [View.read_apply]
  show V c main_v0 _ = V c main_v0 k
  congr 1
  funext a
  apply Fin.ext
  match a with
  | ⟨0, _⟩ => show win1_1.index t (0 : Fin 2) * 1024 + 1 * (x 0).val = (k 0).val; rw [e0, hk0]; omega
  | ⟨1, _⟩ => show win1_1.index t (1 : Fin 2) * 512 + 1 * (x 1).val = (k 1).val; rw [e1, hk1]; omega

theorem simBlk_apply (c : Dev nD) (t : Fin cfg1.N) (x : S1024x1024.Idx) (k : S4096x8192.Idx)
    (hk0 : (k 0).val = t.val / 8 * 1024 + (x 0).val) (hk1 : (k 1).val = t.val % 8 * 1024 + (x 1).val) :
    simBlk V c t x = simArr V c k := by
  obtain ⟨-, -, e0, e1, -⟩ := idx_facts1 t
  show iblk1 V c 2 t x = V c main_v1_0 k
  unfold iblk1
  rw [View.read_apply]
  show V c main_v1_0 _ = V c main_v1_0 k
  congr 1
  funext a
  apply Fin.ext
  match a with
  | ⟨0, _⟩ => show win1_2.index t (0 : Fin 2) * 1024 + 1 * (x 0).val = (k 0).val; rw [e0, hk0]; omega
  | ⟨1, _⟩ => show win1_2.index t (1 : Fin 2) * 1024 + 1 * (x 1).val = (k 1).val; rw [e1, hk1]; omega

theorem rsBlk_apply (c : Dev nD) (t : Fin cfg1.N) (x : S1024x1.Idx) (k : S4096x1.Idx)
    (hk0 : (k 0).val = t.val / 8 * 1024 + (x 0).val) (hk1 : (k 1).val = (x 1).val) :
    rsBlk V c t x = rsArr V c k := by
  obtain ⟨-, -, -, -, e0, e1, -⟩ := idx_facts1 t
  show iblk1 V c 3 t x = V c main_v1_1 k
  unfold iblk1
  rw [View.read_apply]
  show V c main_v1_1 _ = V c main_v1_1 k
  congr 1
  funext a
  apply Fin.ext
  match a with
  | ⟨0, _⟩ => show win1_3.index t (0 : Fin 2) * 1024 + 1 * (x 0).val = (k 0).val; rw [e0, hk0]; omega
  | ⟨1, _⟩ => show win1_3.index t (1 : Fin 2) * 1 + 1 * (x 1).val = (k 1).val; rw [e1, hk1]; omega

theorem csBlk_apply (c : Dev nD) (t : Fin cfg1.N) (x : S1x8192.Idx) (k : S1x8192.Idx)
    (hk0 : (k 0).val = (x 0).val) (hk1 : (k 1).val = (x 1).val) :
    csBlk V c t x = csArr V c k := by
  obtain ⟨-, -, -, -, -, -, e0, e1, -⟩ := idx_facts1 t
  show iblk1 V c 4 t x = V c main_v2 k
  unfold iblk1
  rw [View.read_apply]
  show V c main_v2 _ = V c main_v2 k
  congr 1
  funext a
  apply Fin.ext
  match a with
  | ⟨0, _⟩ => show win1_4.index t (0 : Fin 2) * 1 + 1 * (x 0).val = (k 0).val; rw [e0, hk0]; omega
  | ⟨1, _⟩ => show win1_4.index t (1 : Fin 2) * 8192 + 1 * (x 1).val = (k 1).val; rw [e1, hk1]; omega

theorem csSlice_apply (c : Dev nD) (t : Fin cfg1.N) (q : Fin 1024) (k : S1x8192.Idx)
    (hk0 : (k 0).val = 0) (hk1 : (k 1).val = t.val % 8 * 1024 + q.val) :
    (View.ld (csBlk V c t) (csRect1 (grid1.coords t)) : Vec Ideal S1x1024 .f32) (ix2 (0 : Fin 1) q) = csArr V c k := by
  obtain ⟨-, -, -, -, -, -, -, -, -, -, -, o0, o1⟩ := idx_facts1 t
  show csBlk V c t ((csRect1 (grid1.coords t)).idx (ix2 (0 : Fin 1) q)) = csArr V c k
  refine csBlk_apply V c t _ k ?_ ?_
  · show (k 0).val = k1_off1 (grid1.coords t) (0 : Fin 2) + 1 * 0
    rw [o0, hk0]
  · show (k 1).val = k1_off1 (grid1.coords t) (1 : Fin 2) + 1 * q.val
    rw [o1, hk1]; omega

end Cert.KernelIdeal.Val1

end
-- ==== Proof.Pay1Norm.lean ====
import proofs.«405954_j50337016709322_3_alg».proof.Proof.Gen.KernelIdeal.Skeleton
import proofs.«405954_j50337016709322_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 65536

noncomputable section

open scoped BigOperators

namespace Cert.KernelIdeal.Pay1

open Idealize.ShloMosaic Idealize.SL.Sem Idealize.ShloMosaic.ValueIdx Cert.KernelIdeal Cert.KernelIdeal.Gen

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem rowReduce_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p) = ∑ q : Fin b, src (ix2 p q) := by
  refine (Ideal.multiReduction_add_single src 0x00000000#32 h hφ hacc (ix1 p)).trans ?_
  refine Finset.sum_congr rfl fun q _ => congrArg src ?_
  funext c
  match c with
  | ⟨0, _⟩ => rfl
  | ⟨1, _⟩ => rfl

theorem pay7_apply (v2 : Vec Ideal S1024x1024 .f32) (v6 : Vec Ideal S1024x1 .f32) (v9 : Vec Ideal S1x1024 .f32)
    (p q : Fin 1024) :
    k1_pay7 (F := Ideal) v2 v6 v9 (ix2 p q)
      = v2 (ix2 p q) * Ideal.rsqrt (max (v6 (ix2 p 0) * v9 (ix2 0 q)) Cert.BiNorm.floorEps) := by
  unfold k1_pay7
  simp only [shapeCast_self]
  show v2 (ix2 p q) * Ideal.rsqrt (max (broadcastTo S1024x1024 v6 broadcasts_S1024x1_S1024x1024 (ix2 p q)
      * broadcastTo S1024x1024 v9 broadcasts_S1x1024_S1024x1024 (ix2 p q)) (Ideal.ofBits .f32 0x2B8CBCCC#32)) = _
  rw [broadcastTo_a1_ab_apply v6 broadcasts_S1024x1_S1024x1024 p q,
    broadcastTo_1b_ab_apply v9 broadcasts_S1x1024_S1024x1024 p q]
  rfl

theorem pay8_apply (v2 : Vec Ideal S1024x1024 .f32) (v6 : Vec Ideal S1024x1 .f32) (v9 : Vec Ideal S1x1024 .f32)
    (p : Fin 1024) :
    k1_pay8 (F := Ideal) v2 v6 v9 (ix2 p 0) = ∑ q : Fin 1024, k1_pay7 (F := Ideal) v2 v6 v9 (ix2 p q) := by
  unfold k1_pay8
  refine (shapeCast_a_a1_apply _ shapeCasts_S1024_S1024x1 p 0).trans ?_
  exact rowReduce_apply (k1_pay7 (F := Ideal) v2 v6 v9) reduces_S1024x1024_S1024 (.inl rfl) rfl p

theorem guard_lt4 (n : ℕ) (hn : n < 8) : Scalar.cmpi .slt (BitVec.ofNat 32 n) 4#32 = 1#1 ↔ n < 4 :=
  StableHlo.Predicate.slt_ofNat_iff n 4 (by omega) (by norm_num)

theorem pay13_apply (i : grid1.Coords) (v2 : Vec Ideal S1024x1024 .f32) (v6 : Vec Ideal S1024x1 .f32)
    (v9 : Vec Ideal S1x1024 .f32) (v24 : Vec Ideal S1024x1 .f32) (p : Fin 1024) :
    k1_pay13 (F := Ideal) i v2 v6 v9 v24 (ix2 p 0)
      = v24 (ix2 p 0) + (if (i 1).val < 4 then k1_pay8 (F := Ideal) v2 v6 v9 (ix2 p 0) else 0) := by
  unfold k1_pay13
  simp only [shapeCast_self]
  have h8 : (i 1).val < 8 := (i 1).isLt
  by_cases h : (i 1).val < 4
  · rw [if_pos h, (guard_lt4 _ h8).mpr h, select_one]
    rfl
  · rw [if_neg h, eq_zero_of_ne_one (mt (guard_lt4 _ h8).mp h), select_zero]
    show v24 (ix2 p 0) + Ideal.ofBits .f32 0x00000000#32 = _
    rw [Ideal.ofBits_zero_f32]

theorem pay14_apply (i : grid1.Coords) (v2 : Vec Ideal S1024x1024 .f32) (v6 : Vec Ideal S1024x1 .f32)
    (v9 : Vec Ideal S1x1024 .f32) (v31 : Vec Ideal S1024x1 .f32) (p : Fin 1024) :
    k1_pay14 (F := Ideal) i v2 v6 v9 v31 (ix2 p 0)
      = v31 (ix2 p 0) + (if (i 1).val < 4 then 0 else k1_pay8 (F := Ideal) v2 v6 v9 (ix2 p 0)) := by
  unfold k1_pay14
  simp only
  have h8 : (i 1).val < 8 := (i 1).isLt
  by_cases h : (i 1).val < 4
  · rw [if_pos h, (guard_lt4 _ h8).mpr h, select_one]
    show v31 (ix2 p 0) + Ideal.ofBits .f32 0x00000000#32 = _
    rw [Ideal.ofBits_zero_f32]
  · rw [if_neg h, eq_zero_of_ne_one (mt (guard_lt4 _ h8).mp h), select_zero]
    rfl

theorem pay1_eq (v34 : FVec Ideal S1024x1 .f32) : k1_pay1 (F := Ideal) v34 = v34 := by
  unfold k1_pay1
  exact shapeCast_self _ _

theorem pay6_eq (v0 : Vec Ideal S1024x512 .f32) : k1_pay6 (F := Ideal) v0 = v0 := by
  unfold k1_pay6
  exact shapeCast_self _ _

theorem pay9_apply (p : Fin 1024) : (k1_pay9 (F := Ideal)) (ix2 p 0) = 0 := by
  unfold k1_pay9
  simp only [shapeCast_self]
  exact Ideal.ofBits_zero_f32

theorem pay10_apply (p : Fin 1024) : (k1_pay10 (F := Ideal)) (ix2 p 0) = 0 := by
  unfold k1_pay10
  simp only [shapeCast_self]
  exact Ideal.ofBits_zero_f32

theorem pay11_apply (p : Fin 1024) (d : Fin 512) : (k1_pay11 (F := Ideal)) (ix2 p d) = 0 := by
  unfold k1_pay11
  simp only [shapeCast_self]
  exact Ideal.ofBits_zero_f32

theorem pay12_apply (p : Fin 1024) (d : Fin 512) : (k1_pay12 (F := Ideal)) (ix2 p d) = 0 := by
  unfold k1_pay12
  simp only [shapeCast_self]
  exact Ideal.ofBits_zero_f32

end Cert.KernelIdeal.Pay1

end
-- ==== Proof.Pay1Prod.lean ====
import proofs.«405954_j50337016709322_3_alg».proof.Proof.Pay1Norm

set_option maxRecDepth 65536

noncomputable section

open scoped BigOperators

namespace Cert.KernelIdeal.Pay1

open Idealize.ShloMosaic Idealize.SL.Sem Idealize.ShloMosaic.ValueIdx Cert.KernelIdeal Cert.KernelIdeal.Gen

theorem lhs_dotNT_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
theorem lhs_dotNT_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_dotNT_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_dotNT_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

theorem matmulNT_apply (L : FVec Ideal S1024x1024 .bf16) (R : FVec Ideal S1024x512 .bf16) (p : Fin 1024) (d : Fin 512) :
    FloatOps.matmul dot_S1024x1024_S1024x512_S1024x512_1_0_0_1_n_n none L R (constant (F := Ideal) S1024x512 .f32 0x00000000#32) (ix2 p d)
      = ∑ q : Fin 1024, L (ix2 p q) * R (ix2 q d) := by
  rw [Ideal.matmul_constant_zero_apply,
    ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p d)
      ((contrEquiv1 dot_S1024x1024_S1024x512_S1024x512_1_0_0_1_n_n 1024 rfl rfl).symm k) = ix2 p k :=
    funext fun a => Fin.ext (by
      match a with
      | ⟨0, _⟩ => exact lhs_dotNT_0 _ _
      | ⟨1, _⟩ => exact (lhs_dotNT_1 _ _).trans hk)
  have er : dot_S1024x1024_S1024x512_S1024x512_1_0_0_1_n_n.rhsIdx (ix2 p d)
      ((contrEquiv1 dot_S1024x1024_S1024x512_S1024x512_1_0_0_1_n_n 1024 rfl rfl).symm k) = ix2 k d :=
    funext fun a => Fin.ext (by
      match a with
      | ⟨0, _⟩ => exact (rhs_dotNT_0 _ _).trans hk
      | ⟨1, _⟩ => exact rhs_dotNT_1 _ _)
  rw [el, er]

theorem pay2_apply (v1 : FVec Ideal S1024x512 .f32) (v17 : FVec Ideal S1024x1024 .f32) (p : Fin 1024) (d : Fin 512) :
    k1_pay2 (F := Ideal) v1 v17 (ix2 p d) = ∑ q : Fin 1024, v17 (ix2 p q) * v1 (ix2 q d) := by
  unfold k1_pay2
  exact matmulNT_apply (truncf .bf16 v17 bitsLt_bf16_f32) (truncf .bf16 v1 bitsLt_bf16_f32) p d

theorem pay3_apply (v1 : FVec Ideal S1024x512 .f32) (v17 : FVec Ideal S1024x1024 .f32) (v20 : BitVec 1)
    (v41 : Vec Ideal S1024x512 .f32) (p : Fin 1024) (d : Fin 512) :
    k1_pay3 (F := Ideal) v1 v17 v20 v41 (ix2 p d)
      = v41 (ix2 p d) + (if v20 = 1#1 then 0 else k1_pay2 (F := Ideal) v1 v17 (ix2 p d)) := by
  unfold k1_pay3
  simp only [shapeCast_self]
  by_cases h : v20 = 1#1
  · rw [if_pos h, h, select_one]
    show v41 (ix2 p d) + Ideal.ofBits .f32 0x00000000#32 = _
    rw [Ideal.ofBits_zero_f32]
  · rw [if_neg h, eq_zero_of_ne_one h, select_zero]
    rfl

theorem pay4_apply (v1 : FVec Ideal S1024x512 .f32) (v17 : FVec Ideal S1024x1024 .f32) (v20 : BitVec 1)
    (v48 : Vec Ideal S1024x512 .f32) (p : Fin 1024) (d : Fin 512) :
    k1_pay4 (F := Ideal) v1 v17 v20 v48 (ix2 p d)
      = v48 (ix2 p d) + (if v20 = 1#1 then k1_pay2 (F := Ideal) v1 v17 (ix2 p d) else 0) := by
  unfold k1_pay4
  simp only [shapeCast_self]
  by_cases h : v20 = 1#1
  · rw [if_pos h, h, select_one]
    rfl
  · rw [if_neg h, eq_zero_of_ne_one h, select_zero]
    show v48 (ix2 p d) + Ideal.ofBits .f32 0x00000000#32 = _
    rw [Ideal.ofBits_zero_f32]

theorem pay5_apply (v58 : Vec Ideal S1024x1 .f32) (v59 : Vec Ideal S1024x512 .f32) (v62 : Vec Ideal S1024x1 .f32)
    (v63 : Vec Ideal S1024x512 .f32) (p : Fin 1024) (d : Fin 512) :
    k1_pay5 (F := Ideal) v58 v59 v62 v63 (ix2 p d)
      = v58 (ix2 p 0) * v59 (ix2 p d) - v62 (ix2 p 0) * v63 (ix2 p d) := by
  unfold k1_pay5
  show broadcastTo S1024x512 v58 broadcasts_S1024x1_S1024x512 (ix2 p d) * v59 (ix2 p d)
      - broadcastTo S1024x512 v62 broadcasts_S1024x1_S1024x512 (ix2 p d) * v63 (ix2 p d) = _
  rw [broadcastTo_a1_ab_apply v58 broadcasts_S1024x1_S1024x512 p d,
    broadcastTo_a1_ab_apply v62 broadcasts_S1024x1_S1024x512 p d]

end Cert.KernelIdeal.Pay1

end
-- ==== Proof.Val1Run.lean ====
import proofs.«405954_j50337016709322_3_alg».proof.Proof.Val1Blocks
import proofs.«405954_j50337016709322_3_alg».proof.Proof.Spec
import proofs.«405954_j50337016709322_3_alg».proof.Proof.Pay1Norm
import proofs.«405954_j50337016709322_3_alg».proof.Proof.Pay1Prod
import proofs.«405954_j50337016709322_3_alg».proof.Proof.TileSums

set_option maxRecDepth 16384

noncomputable section

open scoped BigOperators

namespace Cert.KernelIdeal.Val1

open Cert.KernelIdeal Cert.KernelIdeal.Gen Cert.KernelIdeal.Hand Cert.KernelIdeal.Pay1
open Idealize.ShloMosaic Idealize.ShloMosaic.TcCoe Idealize.SL.Sem Idealize.ShloMosaic.ValueIdx
open Cert.BiNorm (Mat col runSum)

section Math
variable (K : Mat 4096 8192) (rs : Fin 4096 → EReal) (cs : Fin 8192 → EReal) (T : Mat 8192 512)

def nrm (i : Fin 4096) (j : Fin 8192) : EReal := K i j * Ideal.rsqrt (max (rs i * cs j) Cert.BiNorm.floorEps)

def colN (k : ℕ) (q : Fin 1024) : Fin 8192 := ⟨k % 8 * 1024 + q.val, by omega⟩

theorem colN_val (k : ℕ) (q : Fin 1024) : (colN k q).val = k % 8 * 1024 + q.val := rfl

theorem colN_eq_col (k : Fin 8) (q : Fin 1024) : colN k.val q = col k q :=
  Fin.ext (by show k.val % 8 * 1024 + q.val = k.val * 1024 + q.val; omega)

def tileSum (i : Fin 4096) (k : ℕ) : EReal := ∑ q : Fin 1024, nrm K rs cs i (colN k q)
def tileDot (i : Fin 4096) (d : Fin 512) (k : ℕ) : EReal := ∑ q : Fin 1024, nrm K rs cs i (colN k q) * T (colN k q) d

def addLo (i : Fin 4096) (k : ℕ) : EReal := if k < 4 then tileSum K rs cs i k else 0
def addHi (i : Fin 4096) (k : ℕ) : EReal := if k < 4 then 0 else tileSum K rs cs i k
def dotHi (i : Fin 4096) (d : Fin 512) (k : ℕ) : EReal := if k < 4 then 0 else tileDot K rs cs T i d k
def dotLo (i : Fin 4096) (d : Fin 512) (k : ℕ) : EReal := if k < 4 then tileDot K rs cs T i d k else 0

end Math

section Step
variable (K : Mat 4096 8192) (rs : Fin 4096 → EReal) (cs : Fin 8192 → EReal) (T : Mat 8192 512)

theorem pay7_nrm (x2 : Vec Ideal S1024x1024 .f32) (x3 : Vec Ideal S1024x1 .f32) (csv : Vec Ideal S1x1024 .f32)
    (r : Fin 1024) (i : Fin 4096) (k : ℕ)
    (h2 : ∀ q : Fin 1024, x2 (ix2 r q) = K i (colN k q)) (h3 : x3 (ix2 r (0 : Fin 1)) = rs i)
    (h4 : ∀ q : Fin 1024, csv (ix2 (0 : Fin 1) q) = cs (colN k q)) (q : Fin 1024) :
    k1_pay7 (F := Ideal) x2 x3 csv (ix2 r q) = nrm K rs cs i (colN k q) := by
  rw [pay7_apply x2 x3 csv r q, h2 q, h3, h4 q]
  rfl

theorem pay8_tileSum (x2 : Vec Ideal S1024x1024 .f32) (x3 : Vec Ideal S1024x1 .f32) (csv : Vec Ideal S1x1024 .f32)
    (r : Fin 1024) (i : Fin 4096) (k : ℕ)
    (h2 : ∀ q : Fin 1024, x2 (ix2 r q) = K i (colN k q)) (h3 : x3 (ix2 r (0 : Fin 1)) = rs i)
    (h4 : ∀ q : Fin 1024, csv (ix2 (0 : Fin 1) q) = cs (colN k q)) :
    k1_pay8 (F := Ideal) x2 x3 csv (ix2 r (0 : Fin 1)) = tileSum K rs cs i k := by
  rw [pay8_apply x2 x3 csv r]
  exact Finset.sum_congr rfl fun q _ => pay7_nrm K rs cs x2 x3 csv r i k h2 h3 h4 q

theorem pay2_tileDot (x1 : Vec Ideal S1024x512 .f32) (x2 : Vec Ideal S1024x1024 .f32) (x3 : Vec Ideal S1024x1 .f32)
    (csv : Vec Ideal S1x1024 .f32) (r : Fin 1024) (i : Fin 4096) (k : ℕ)
    (h1 : ∀ (q : Fin 1024) (d : Fin 512), x1 (ix2 q d) = T (colN k q) d)
    (h2 : ∀ q : Fin 1024, x2 (ix2 r q) = K i (colN k q)) (h3 : x3 (ix2 r (0 : Fin 1)) = rs i)
    (h4 : ∀ q : Fin 1024, csv (ix2 (0 : Fin 1) q) = cs (colN k q)) (d : Fin 512) :
    k1_pay2 (F := Ideal) (k1_pay6 (F := Ideal) x1) (k1_pay7 (F := Ideal) x2 x3 csv) (ix2 r d) = tileDot K rs cs T i d k := by
  rw [pay2_apply (k1_pay6 (F := Ideal) x1) (k1_pay7 (F := Ideal) x2 x3 csv) r d, pay6_eq x1]
  exact Finset.sum_congr rfl fun q _ => by rw [pay7_nrm K rs cs x2 x3 csv r i k h2 h3 h4 q, h1 q d]

theorem step_apply (g : grid1.Coords) (x1 : Vec Ideal S1024x512 .f32) (x2 : Vec Ideal S1024x1024 .f32)
    (x3 : Vec Ideal S1024x1 .f32) (csv : Vec Ideal S1x1024 .f32) (p : Acc1 Ideal) (r : Fin 1024) (i : Fin 4096) (k : ℕ)
    (hk : (g 1).val = k)
    (h1 : ∀ (q : Fin 1024) (d : Fin 512), x1 (ix2 q d) = T (colN k q) d)
    (h2 : ∀ q : Fin 1024, x2 (ix2 r q) = K i (colN k q)) (h3 : x3 (ix2 r (0 : Fin 1)) = rs i)
    (h4 : ∀ q : Fin 1024, csv (ix2 (0 : Fin 1) q) = cs (colN k q)) :
    (scStep1 (F := Ideal) g x1 x2 x3 csv p).1 (ix2 r (0 : Fin 1)) = p.1 (ix2 r (0 : Fin 1)) + addLo K rs cs i k
    ∧ (scStep1 (F := Ideal) g x1 x2 x3 csv p).2.1 (ix2 r (0 : Fin 1)) = p.2.1 (ix2 r (0 : Fin 1)) + addHi K rs cs i k
    ∧ (∀ d : Fin 512, (scStep1 (F := Ideal) g x1 x2 x3 csv p).2.2.1 (ix2 r d) = p.2.2.1 (ix2 r d) + dotHi K rs cs T i d k)
    ∧ (∀ d : Fin 512, (scStep1 (F := Ideal) g x1 x2 x3 csv p).2.2.2 (ix2 r d) = p.2.2.2 (ix2 r d) + dotLo K rs cs T i d k) := by
  have h8 : (g 1).val < 8 := (g 1).isLt
  have hg := guard_lt4 (g 1).val h8
  unfold scStep1
  dsimp only
  refine ⟨?_, ?_, fun d => ?_, fun d => ?_⟩
  · rw [pay13_apply g x2 x3 csv p.1 r, pay8_tileSum K rs cs x2 x3 csv r i k h2 h3 h4, hk]
    rfl
  · rw [pay1_eq, pay14_apply g x2 x3 csv p.2.1 r, pay8_tileSum K rs cs x2 x3 csv r i k h2 h3 h4, hk]
    rfl
  · rw [pay3_apply (k1_pay6 (F := Ideal) x1) (k1_pay7 (F := Ideal) x2 x3 csv) _ p.2.2.1 r d,
      pay2_tileDot K rs cs T x1 x2 x3 csv r i k h1 h2 h3 h4 d]
    unfold dotHi
    rw [if_congr (hg.trans (by rw [hk])) rfl rfl]
  · rw [pay4_apply (k1_pay6 (F := Ideal) x1) (k1_pay7 (F := Ideal) x2 x3 csv) _ p.2.2.2 r d,
      pay2_tileDot K rs cs T x1 x2 x3 csv r i k h1 h2 h3 h4 d]
    unfold dotLo
    rw [if_congr (hg.trans (by rw [hk])) rfl rfl]

theorem zero_apply (r : Fin 1024) :
    (scZero1 (F := Ideal)).1 (ix2 r (0 : Fin 1)) = 0 ∧ (scZero1 (F := Ideal)).2.1 (ix2 r (0 : Fin 1)) = 0
    ∧ (∀ d : Fin 512, (scZero1 (F := Ideal)).2.2.1 (ix2 r d) = 0) ∧ (∀ d : Fin 512, (scZero1 (F := Ideal)).2.2.2 (ix2 r d) = 0) := by
  unfold scZero1
  dsimp only
  exact ⟨pay9_apply r, pay10_apply r, fun d => pay11_apply r d, fun d => pay12_apply r d⟩

end Step

section Run
variable (V : (c : Dev nD) → (b : Ref sig .tc) → Buf (Elt Ideal) ((c : Thread nD τ).loc b)) (c : Dev nD)
variable (K : Mat 4096 8192) (rs : Fin 4096 → EReal) (cs : Fin 8192 → EReal) (T : Mat 8192 512)

theorem stepAt_apply
    (hT : ∀ (j : Fin 8192) (d : Fin 512), tgtArr V c (ix2 j d) = T j d)
    (hK : ∀ (i : Fin 4096) (j : Fin 8192), simArr V c (ix2 i j) = K i j)
    (hr : ∀ i : Fin 4096, rsArr V c (ix2 i (0 : Fin 1)) = rs i)
    (hc : ∀ j : Fin 8192, csArr V c (ix2 (0 : Fin 1) j) = cs j)
    (t : Fin cfg1.N) (p : Acc1 Ideal) (r : Fin 1024) (i : Fin 4096) (hi : i.val = t.val / 8 * 1024 + r.val) :
    (scStepAt1 V c t p).1 (ix2 r (0 : Fin 1)) = p.1 (ix2 r (0 : Fin 1)) + addLo K rs cs i (t.val % 8)
    ∧ (scStepAt1 V c t p).2.1 (ix2 r (0 : Fin 1)) = p.2.1 (ix2 r (0 : Fin 1)) + addHi K rs cs i (t.val % 8)
    ∧ (∀ d : Fin 512, (scStepAt1 V c t p).2.2.1 (ix2 r d) = p.2.2.1 (ix2 r d) + dotHi K rs cs T i d (t.val % 8))
    ∧ (∀ d : Fin 512, (scStepAt1 V c t p).2.2.2 (ix2 r d) = p.2.2.2 (ix2 r d) + dotLo K rs cs T i d (t.val % 8)) := by
  obtain ⟨-, -, -, -, -, -, -, -, -, -, eg, -, -⟩ := idx_facts1 t
  have hcol : ∀ q : Fin 1024, (colN (t.val % 8) q).val = t.val % 8 * 1024 + q.val := fun q => by
    rw [colN_val]; omega
  unfold scStepAt1
  exact step_apply K rs cs T (grid1.coords t) (tgtBlk V c t) (simBlk V c t) (rsBlk V c t)
    (View.ld (csBlk V c t) (csRect1 (grid1.coords t))) p r i (t.val % 8) eg
    (fun q d => (tgtBlk_apply V c t (ix2 q d) (ix2 (colN (t.val % 8) q) d) (hcol q) rfl).trans (hT (colN (t.val % 8) q) d))
    (fun q => (simBlk_apply V c t (ix2 r q) (ix2 i (colN (t.val % 8) q)) hi (hcol q)).trans (hK i (colN (t.val % 8) q)))
    ((rsBlk_apply V c t (ix2 r (0 : Fin 1)) (ix2 i (0 : Fin 1)) hi rfl).trans (hr i))
    (fun q => (csSlice_apply V c t q (ix2 (0 : Fin 1) (colN (t.val % 8) q)) rfl (hcol q)).trans (hc (colN (t.val % 8) q)))

theorem run_inv
    (hT : ∀ (j : Fin 8192) (d : Fin 512), tgtArr V c (ix2 j d) = T j d)
    (hK : ∀ (i : Fin 4096) (j : Fin 8192), simArr V c (ix2 i j) = K i j)
    (hr : ∀ i : Fin 4096, rsArr V c (ix2 i (0 : Fin 1)) = rs i)
    (hc : ∀ j : Fin 8192, csArr V c (ix2 (0 : Fin 1) j) = cs j) :
    ∀ (n : ℕ) (hn : n < cfg1.N) (r : Fin 1024) (i : Fin 4096), i.val = n / 8 * 1024 + r.val →
      (scAt1 V c n hn).1 (ix2 r (0 : Fin 1)) = runSum (addLo K rs cs i) (n % 8)
      ∧ (scAt1 V c n hn).2.1 (ix2 r (0 : Fin 1)) = runSum (addHi K rs cs i) (n % 8)
      ∧ (∀ d : Fin 512, (scAt1 V c n hn).2.2.1 (ix2 r d) = runSum (dotHi K rs cs T i d) (n % 8))
      ∧ (∀ d : Fin 512, (scAt1 V c n hn).2.2.2 (ix2 r d) = runSum (dotLo K rs cs T i d) (n % 8)) := by
  intro n
  induction n with
  | zero =>
    intro hn r i hi
    have e : scAt1 V c 0 hn = scStepAt1 V c ⟨0, hn⟩ scZero1 := scAt1_first V c ⟨0, hn⟩ rfl
    obtain ⟨s1, s2, s3, s4⟩ := stepAt_apply V c K rs cs T hT hK hr hc ⟨0, hn⟩ scZero1 r i hi
    obtain ⟨z1, z2, z3, z4⟩ := zero_apply r
    rw [e]
    exact ⟨by rw [s1, z1]; rfl, by rw [s2, z2]; rfl, fun d => by rw [s3 d, z3 d]; rfl, fun d => by rw [s4 d, z4 d]; rfl⟩
  | succ n ih =>
    intro hn r i hi
    by_cases h : (n + 1) % 8 = 0
    · have e : scAt1 V c (n + 1) hn = scStepAt1 V c ⟨n + 1, hn⟩ scZero1 := scAt1_first V c ⟨n + 1, hn⟩ h
      obtain ⟨s1, s2, s3, s4⟩ := stepAt_apply V c K rs cs T hT hK hr hc ⟨n + 1, hn⟩ scZero1 r i hi
      obtain ⟨z1, z2, z3, z4⟩ := zero_apply r
      dsimp only at s1 s2 s3 s4
      rw [e]
      exact ⟨by rw [s1, z1, h]; rfl, by rw [s2, z2, h]; rfl, fun d => by rw [s3 d, z3 d, h]; rfl,
        fun d => by rw [s4 d, z4 d, h]; rfl⟩
    · have e : scAt1 V c (n + 1) hn = scStepAt1 V c ⟨n + 1, hn⟩ (scAt1 V c n (Nat.lt_of_succ_lt hn)) :=
        scAt1_next V c ⟨n + 1, hn⟩ h
      obtain ⟨s1, s2, s3, s4⟩ := stepAt_apply V c K rs cs T hT hK hr hc ⟨n + 1, hn⟩ (scAt1 V c n (Nat.lt_of_succ_lt hn)) r i hi
      obtain ⟨p1, p2, p3, p4⟩ := ih (Nat.lt_of_succ_lt hn) r i (by rw [hi]; omega)
      have hm : (n + 1) % 8 = n % 8 + 1 := by omega
      dsimp only at s1 s2 s3 s4
      rw [e]
      exact ⟨by rw [s1, p1, hm]; rfl, by rw [s2, p2, hm]; rfl, fun d => by rw [s3 d, p3 d, hm]; rfl,
        fun d => by rw [s4 d, p4 d, hm]; rfl⟩

end Run

end Cert.KernelIdeal.Val1

end
-- ==== Proof.Val1Out.lean ====
import proofs.«405954_j50337016709322_3_alg».proof.Proof.Val1Run

set_option maxRecDepth 16384

noncomputable section

open scoped BigOperators

namespace Cert.KernelIdeal.Val1

open Cert.KernelIdeal Cert.KernelIdeal.Gen Cert.KernelIdeal.Hand Cert.KernelIdeal.Pay1
open Idealize.ShloMosaic Idealize.ShloMosaic.TcCoe Idealize.SL.Sem Idealize.ShloMosaic.ValueIdx
open Idealize.ShloMosaic.Pipeline (Dat)
open Cert.BiNorm (Mat col runSum lo hi tgt sumLo sumHi outer)

section Out
variable (V : (c : Dev nD) → (b : Ref sig .tc) → Buf (Elt Ideal) ((c : Thread nD τ).loc b)) (c : Dev nD)
variable (K : Mat 4096 8192) (rs : Fin 4096 → EReal) (cs : Fin 8192 → EReal)

theorem acc_last (T : Mat 8192 512)
    (hT : ∀ (j : Fin 8192) (d : Fin 512), tgtArr V c (ix2 j d) = T j d)
    (hK : ∀ (i : Fin 4096) (j : Fin 8192), simArr V c (ix2 i j) = K i j)
    (hr : ∀ i : Fin 4096, rsArr V c (ix2 i (0 : Fin 1)) = rs i)
    (hc : ∀ j : Fin 8192, csArr V c (ix2 (0 : Fin 1) j) = cs j)
    (t : Fin cfg1.N) (h7 : t.val % 8 = 7) (r : Fin 1024) (i : Fin 4096) (hrow : i.val = t.val / 8 * 1024 + r.val) :
    (scAt1 V c t.val t.isLt).1 (ix2 r (0 : Fin 1)) = sumLo (nrm K rs cs) i
    ∧ (scAt1 V c t.val t.isLt).2.1 (ix2 r (0 : Fin 1)) = sumHi (nrm K rs cs) i
    ∧ (∀ d : Fin 512, (scAt1 V c t.val t.isLt).2.2.1 (ix2 r d) = ∑ j : Fin 4096, nrm K rs cs i (hi j) * T (hi j) d)
    ∧ (∀ d : Fin 512, (scAt1 V c t.val t.isLt).2.2.2 (ix2 r d) = ∑ j : Fin 4096, nrm K rs cs i (lo j) * T (lo j) d) := by
  obtain ⟨p1, p2, p3, p4⟩ := run_inv V c K rs cs T hT hK hr hc t.val t.isLt r i hrow
  rw [h7] at p1 p2 p3 p4
  refine ⟨p1.trans ?_, p2.trans ?_, fun d => (p3 d).trans ?_, fun d => (p4 d).trans ?_⟩
  · rw [Cert.BiNorm.runSum_seven]
    simp only [addLo, tileSum, colN_eq_col]
    exact Cert.BiNorm.sum_lo_tiles (fun j => nrm K rs cs i j)
  · rw [Cert.BiNorm.runSum_seven]
    simp only [addHi, tileSum, colN_eq_col]
    exact Cert.BiNorm.sum_hi_tiles (fun j => nrm K rs cs i j)
  · rw [Cert.BiNorm.runSum_seven]
    simp only [dotHi, tileDot, colN_eq_col]
    exact Cert.BiNorm.sum_hi_tiles (fun j => nrm K rs cs i j * T j d)
  · rw [Cert.BiNorm.runSum_seven]
    simp only [dotLo, tileDot, colN_eq_col]
    exact Cert.BiNorm.sum_lo_tiles (fun j => nrm K rs cs i j * T j d)

variable (g p : Mat 4096 512)

def outArr : Vec Ideal S4096x512 .f32 := fun x =>
  outer (nrm K rs cs) g p ⟨(x 0).val, idx2_lt0 x⟩ ⟨(x 1).val, idx2_lt1 x⟩

theorem outArr_apply (i : Fin 4096) (d : Fin 512) : outArr K rs cs g p (ix2 i d) = outer (nrm K rs cs) g p i d := rfl

theorem out_block
    (ht : ∀ (j : Fin 8192) (d : Fin 512), tgtArr V c (ix2 j d) = tgt g p j d)
    (hK : ∀ (i : Fin 4096) (j : Fin 8192), simArr V c (ix2 i j) = K i j)
    (hr : ∀ i : Fin 4096, rsArr V c (ix2 i (0 : Fin 1)) = rs i)
    (hc : ∀ j : Fin 8192, csArr V c (ix2 (0 : Fin 1) j) = cs j)
    (t : Fin cfg1.N) (h7 : t.val % 8 = 7) (y : S1024x512.Idx) (k : S4096x512.Idx)
    (hk0 : (k 0).val = t.val / 8 * 1024 + (y 0).val) (hk1 : (k 1).val = (y 1).val) :
    out1_5 (scAt1 V c t.val t.isLt) y = outArr K rs cs g p k := by
  obtain ⟨r, d, rfl⟩ : ∃ (r : Fin 1024) (d : Fin 512), y = ix2 r d := ⟨y 0, y 1, eq_ix2 y⟩
  obtain ⟨i, e, rfl⟩ : ∃ (i : Fin 4096) (e : Fin 512), k = ix2 i e := ⟨k 0, k 1, eq_ix2 k⟩
  obtain rfl : e = d := Fin.ext hk1
  obtain ⟨a1, a2, a3, a4⟩ := acc_last V c K rs cs (tgt g p) ht hK hr hc t h7 r i hk0
  rw [outArr_apply]
  unfold out1_5
  rw [pay5_apply (scAt1 V c t.val t.isLt).1 (scAt1 V c t.val t.isLt).2.2.1 (scAt1 V c t.val t.isLt).2.1
    (scAt1 V c t.val t.isLt).2.2.2 r e, a1, a2, a3 e, a4 e]
  unfold Cert.BiNorm.outer
  simp only [Cert.BiNorm.tgt_hi, Cert.BiNorm.tgt_lo]

theorem flushed_eq
    (ht : ∀ (j : Fin 8192) (d : Fin 512), tgtArr V c (ix2 j d) = tgt g p j d)
    (hK : ∀ (i : Fin 4096) (j : Fin 8192), simArr V c (ix2 i j) = K i j)
    (hr : ∀ i : Fin 4096, rsArr V c (ix2 i (0 : Fin 1)) = rs i)
    (hc : ∀ j : Fin 8192, csArr V c (ix2 (0 : Fin 1) j) = cs j)
    (t : Fin cfg1.N) (hf : (cfg1.win 5).flush t = true) :
    (dat1 V c).flushed 5 t = ((cfg1.win 5).blk t).view.read (Elt Ideal) (outArr K rs cs g p) := by
  have h7 : t.val % 8 = 7 := (flush1_5 t).mp hf
  obtain ⟨-, -, -, -, -, -, -, -, e0, e1, -⟩ := idx_facts1 t
  show (cfg1.win 5).cut (grid1.coords t) ((dat1 V c).after 5 t) = _
  rw [after1_5]
  funext y
  rw [View.read_apply]
  refine out_block V c K rs cs g p ht hK hr hc t h7 ((cfg1.win 5).xinj (grid1.coords t) y)
    (((cfg1.win 5).blk t).view.emb y) ?_ ?_
  · show win1_5.index t (0 : Fin 2) * 1024 + 1 * (y 0).val = t.val / 8 * 1024 + (y 0).val
    rw [e0]; omega
  · show win1_5.index t (1 : Fin 2) * 512 + 1 * (y 1).val = (y 1).val
    rw [e1]; omega

theorem mem_blk5 (t : Fin cfg1.N) (i : S4096x512.Idx) :
    i ∈ ((cfg1.win 5).blk t).view.set ↔ ∀ a : Fin 2, win1_5.index t a * S1024x512.size a ≤ (i a).val
      ∧ (i a).val < win1_5.index t a * S1024x512.size a + S1024x512.size a := by
  show i ∈ ((View.whole main_v3).slice (win1_5.rect t)).set ↔ _
  rw [View.set_slice_whole, Rect.mem_set_unit]
  exact Iff.rfl

theorem cover5 (i : S4096x512.Idx) :
    ∃ t : Fin cfg1.N, (cfg1.win 5).flush t = true ∧ i ∈ ((cfg1.win 5).blk t).view.set := by
  have h0 : (i 0).val < 4096 := idx2_lt0 i
  have h1 : (i 1).val < 512 := idx2_lt1 i
  have hN : (i 0).val / 1024 * 8 + 7 < cfg1.N := by
    show (i 0).val / 1024 * 8 + 7 < grid1.N
    rw [N_1]; omega
  refine ⟨⟨(i 0).val / 1024 * 8 + 7, hN⟩, (flush1_5 _).mpr (by show ((i 0).val / 1024 * 8 + 7) % 8 = 7; omega), ?_⟩
  obtain ⟨-, -, -, -, -, -, -, -, e0, e1, -⟩ := idx_facts1 ⟨(i 0).val / 1024 * 8 + 7, hN⟩
  rw [mem_blk5]
  intro a
  match a with
  | ⟨0, _⟩ =>
    show win1_5.index ⟨(i 0).val / 1024 * 8 + 7, hN⟩ (0 : Fin 2) * 1024 ≤ (i 0).val
      ∧ (i 0).val < win1_5.index ⟨(i 0).val / 1024 * 8 + 7, hN⟩ (0 : Fin 2) * 1024 + 1024
    rw [e0]
    show ((i 0).val / 1024 * 8 + 7) / 8 * 1024 ≤ (i 0).val ∧ (i 0).val < ((i 0).val / 1024 * 8 + 7) / 8 * 1024 + 1024
    omega
  | ⟨1, _⟩ =>
    show win1_5.index ⟨(i 0).val / 1024 * 8 + 7, hN⟩ (1 : Fin 2) * 512 ≤ (i 1).val
      ∧ (i 1).val < win1_5.index ⟨(i 0).val / 1024 * 8 + 7, hN⟩ (1 : Fin 2) * 512 + 512
    rw [e1]; omega

theorem out_array
    (ht : ∀ (j : Fin 8192) (d : Fin 512), tgtArr V c (ix2 j d) = tgt g p j d)
    (hK : ∀ (i : Fin 4096) (j : Fin 8192), simArr V c (ix2 i j) = K i j)
    (hr : ∀ i : Fin 4096, rsArr V c (ix2 i (0 : Fin 1)) = rs i)
    (hc : ∀ j : Fin 8192, csArr V c (ix2 (0 : Fin 1) j) = cs j) :
    (dat1 V c).arrAt 5 cfg1.N = outArr K rs cs g p :=
  (dat1 V c).arrAt_eq_of_cover 5 (outArr K rs cs g p)
    (fun t hf => flushed_eq V c K rs cs g p ht hK hr hc t hf) cover5

theorem out_final
    (ht : ∀ (j : Fin 8192) (d : Fin 512), tgtArr V c (ix2 j d) = tgt g p j d)
    (hK : ∀ (i : Fin 4096) (j : Fin 8192), simArr V c (ix2 i j) = K i j)
    (hr : ∀ i : Fin 4096, rsArr V c (ix2 i (0 : Fin 1)) = rs i)
    (hc : ∀ j : Fin 8192, csArr V c (ix2 (0 : Fin 1) j) = cs j)
    (i : Fin 4096) (d : Fin 512) :
    ((dat1 V c).arrAt 5 cfg1.N : Vec Ideal S4096x512 .f32) (ix2 i d)
      = outer (fun i j => K i j * Ideal.rsqrt (max (rs i * cs j) Cert.BiNorm.floorEps)) g p i d :=
  congrFun (out_array V c K rs cs g p ht hK hr hc) (ix2 i d)

theorem out_final_V
    (ht : ∀ (j : Fin 8192) (d : Fin 512), V c main_v0 (ix2 j d) = tgt g p j d)
    (hK : ∀ (i : Fin 4096) (j : Fin 8192), V c main_v1_0 (ix2 i j) = K i j)
    (hr : ∀ i : Fin 4096, V c main_v1_1 (ix2 i (0 : Fin 1)) = rs i)
    (hc : ∀ j : Fin 8192, V c main_v2 (ix2 (0 : Fin 1) j) = cs j)
    (i : Fin 4096) (d : Fin 512) :
    (dat1 V c).arrAt 5 cfg1.N (ix2 i d)
      = outer (fun i j => K i j * Ideal.rsqrt (max (rs i * cs j) Cert.BiNorm.floorEps)) g p i d :=
  out_final V c K rs cs g p ht hK hr hc i d

end Out

end Cert.KernelIdeal.Val1

end
-- ==== Proof.Result.lean ====
import proofs.«405954_j50337016709322_3_alg».proof.Proof.Entry
import proofs.«405954_j50337016709322_3_alg».proof.Proof.Half1Inst
import proofs.«405954_j50337016709322_3_alg».proof.Proof.Val1Out

noncomputable section

open scoped BigOperators

namespace Cert.KernelIdeal.Entry

open Cert.KernelIdeal Cert.KernelIdeal.Gen Cert.KernelIdeal.Hand
open Idealize.ShloMosaic Idealize.ShloMosaic.TcCoe Idealize.ShloMosaic.ValueIdx
open Idealize.SL.Sem
open Cert.BiNorm

variable (m : (ℓ : Loc nD τ sig) → Buf (Elt Ideal) ℓ) (ρ : Dev nD → PrngReg) (c : Dev nD)

theorem result_apply (i : Fin 4096) (d : Fin 512) :
    (dat1 (T3 m ρ (first m ρ)) c).arrAt 5 cfg1.N (ix2 i d) = tiledResult (gIn m c) (pIn m c) i d :=
  Val1.out_final_V (T3 m ρ (first m ρ)) c (simMul (gIn m c) (pIn m c)) (rowSum (simMul (gIn m c) (pIn m c)))
    (colSum (simMul (gIn m c) (pIn m c))) (gIn m c) (pIn m c)
    (second_t m ρ c) (second_sim m ρ c) (second_rows m ρ c) (second_cols m ρ c) i d

end Cert.KernelIdeal.Entry

end
-- ==== Proof.RefScatter.lean ====
import proofs.«405954_j50337016709322_3_alg».proof.Defs
import proofs.«405954_j50337016709322_3_alg».proof.Proof.Gen.ReferenceIdeal.Run
import proofs.«405954_j50337016709322_3_alg».proof.Proof.Gen.ReferenceIdeal.Read
import Idealize.ShloMosaic.Lib.ValueIdx

noncomputable section

namespace Cert.ReferenceIdeal.RefScatter

open Cert.ReferenceIdeal Cert.ReferenceIdeal.Gen Cert.ReferenceIdeal.Read Idealize.ShloMosaic Idealize.ShloMosaic.ValueIdx

section Fold
variable {ι I α : Type} [DecidableEq I]

def step (g : ι → Option I) (upd : ι → α) (r : I → α) (n : ι) : I → α :=
  match g n with
  | some i => fun i' => if i' = i then (fun (_ b : α) => b) (r i) (upd n) else r i'
  | none => r

theorem foldl_step_miss (g : ι → Option I) (upd : ι → α) (i' : I) :
    ∀ (l : List ι) (x : I → α), (∀ n ∈ l, g n ≠ some i') → (l.foldl (step g upd) x) i' = x i'
  | [], _, _ => rfl
  | a :: l, x, h => by
    rw [List.foldl_cons, foldl_step_miss g upd i' l _ (fun n hn => h n (List.mem_cons_of_mem _ hn))]
    have ha := h a List.mem_cons_self
    unfold step
    cases hg : g a with
    | none => rfl
    | some i =>
      show (if i' = i then _ else x i') = x i'
      rw [if_neg (fun e => ha (by rw [hg, e]))]

theorem foldl_step_hit (g : ι → Option I) (upd : ι → α) (v : α) (hv : ∀ n, upd n = v) (i' : I) :
    ∀ (l : List ι) (x : I → α), (∃ n ∈ l, g n = some i') → (l.foldl (step g upd) x) i' = v
  | [], _, h => by obtain ⟨n, hn, _⟩ := h; exact absurd hn List.not_mem_nil
  | a :: l, x, h => by
    rw [List.foldl_cons]
    by_cases hl : ∃ n ∈ l, g n = some i'
    · exact foldl_step_hit g upd v hv i' l _ hl
    · have ha : g a = some i' := by
        obtain ⟨n, hn, e⟩ := h
        rcases List.mem_cons.1 hn with rfl | hn
        · exact e
        · exact absurd ⟨n, hn, e⟩ hl
      rw [foldl_step_miss g upd i' l _ (fun n hn e => hl ⟨n, hn, e⟩)]
      unfold step
      rw [ha]
      show (if i' = i' then upd a else x i') = v
      rw [if_pos rfl, hv]

end Fold

theorem scatter_eq_foldl {s si u : Shape} {w : Nat} {α : Type} (d : ScatterDims s si u) (x : s.Idx → α) (idx : IVec si w)
    (upd : u.Idx → α) :
    Host.scatter d (fun _ b => b) x idx upd
      = (List.finRange u.numel).foldl
          (step (fun n => d.resultIdx? (u.rowMajor.symm n) idx) (fun n => upd (u.rowMajor.symm n))) x := by
  unfold Host.scatter
  congr 1
  funext r n
  unfold step
  dsimp only
  cases d.resultIdx? (u.rowMajor.symm n) idx <;> rfl

theorem scatter_miss {s si u : Shape} {w : Nat} {α : Type} (d : ScatterDims s si u) (x : s.Idx → α) (idx : IVec si w)
    (upd : u.Idx → α) (i' : s.Idx) (h : ∀ j, d.resultIdx? j idx ≠ some i') :
    Host.scatter d (fun _ b => b) x idx upd i' = x i' := by
  rw [scatter_eq_foldl]
  exact foldl_step_miss _ _ i' _ x (fun n _ => h _)

theorem scatter_hit {s si u : Shape} {w : Nat} {α : Type} (d : ScatterDims s si u) (x : s.Idx → α) (idx : IVec si w)
    (upd : u.Idx → α) (v : α) (hv : ∀ j, upd j = v) (i' : s.Idx) (j : u.Idx) (h : d.resultIdx? j idx = some i') :
    Host.scatter d (fun _ b => b) x idx upd i' = v := by
  rw [scatter_eq_foldl]
  refine foldl_step_hit _ _ v (fun n => hv _) i' _ x ⟨u.rowMajor j, List.mem_finRange _, ?_⟩
  rw [Equiv.symm_apply_apply]
  exact h

section Index
variable {F : FTy → Type} [FloatOps F]

theorem toInt_word (n : Fin 4096) : (BitVec.ofNat 32 n.val).toInt = (n.val : Int) := by
  have hn : (BitVec.ofNat 32 n.val).toNat = n.val := by rw [BitVec.toNat_ofNat]; exact Nat.mod_eq_of_lt (by omega)
  rw [BitVec.toInt_eq_toNat_of_lt (by rw [hn]; omega), hn]

theorem norm_word (n : Fin 4096) (c : BitVec 32) :
    Scalar.select (IntOp.cmpi .slt (BitVec.ofNat 32 n.val) 0#32) (IntOp.addi (BitVec.ofNat 32 n.val) c) (BitVec.ofNat 32 n.val)
      = BitVec.ofNat 32 n.val := by
  have h : IntOp.cmpi .slt (BitVec.ofNat 32 n.val) 0#32 = 0#1 := by
    refine eq_zero_of_ne_one (fun e => ?_)
    rw [IntOp.cmpi_slt, toInt_word] at e
    have : (0#32 : BitVec 32).toInt = 0 := by decide
    omega
  rw [h, select_zero]

theorem idx_col0 (n : Fin 4096) : val_main_v32 (F := F) (ix2 n (0 : Fin 2)) = BitVec.ofNat 32 n.val := by
  unfold val_main_v32
  rw [concatenate_pair_apply_left (t := S4096x2) (s₁ := S4096x1) (s₂ := S4096x1) (1 : Fin 2) _ _ _ (ix2 n (0 : Fin 2)) rfl (ix2 n (0 : Fin 1))
    (fun b => by match b with | ⟨0, _⟩ => rfl | ⟨1, _⟩ => rfl)]
  rw [val_main_v30_apply, val_main_v24_apply, val_main_v21_apply, val_main_v23_apply, val_main_v19_apply, val_main_v20_apply,
    val_main_c_apply]
  exact norm_word n _

theorem idx_col1 (n : Fin 4096) : val_main_v32 (F := F) (ix2 n (1 : Fin 2)) = BitVec.ofNat 32 n.val := by
  unfold val_main_v32
  rw [concatenate_pair_apply_right (t := S4096x2) (s₁ := S4096x1) (s₂ := S4096x1) (1 : Fin 2) _ _ _ (ix2 n (1 : Fin 2)) rfl rfl (ix2 n (0 : Fin 1))
    (fun b hb => by match b with | ⟨0, _⟩ => rfl | ⟨1, _⟩ => exact absurd rfl hb) rfl]
  rw [val_main_v31_apply, val_main_v29_apply, val_main_v26_apply, val_main_v28_apply, val_main_v19_apply, val_main_v25_apply,
    val_main_c_4_apply]
  exact norm_word n _

end Index

section Diag

theorem resultIdx_diag (idx : IVec S4096x2 32) (n : Fin 4096)
    (h0 : (idx (ix2 n (0 : Fin 2))).toInt = (n.val : Int)) (h1 : (idx (ix2 n (1 : Fin 2))).toInt = (n.val : Int)) :
    scatter_S4096x8192_S4096x2_S4096_n_01_01_1.resultIdx? (ix1 n) idx
      = some (ix2 n (⟨n.val, by omega⟩ : Fin 8192)) := by
  have hw : ∀ a, scatter_S4096x8192_S4096x2_S4096_n_01_01_1.window (ix1 n) a = 0 := fun a => by
    unfold ScatterDims.window
    exact dif_neg (by revert a; decide)
  have hs0 : scatter_S4096x8192_S4096x2_S4096_n_01_01_1.start (ix1 n) idx 0 = (n.val : Int) := by
    unfold ScatterDims.start
    rw [dif_pos (by decide), ← h0]
    congr 2
    funext b
    refine Fin.ext ?_
    match b with
    | ⟨0, _⟩ => rfl
    | ⟨1, _⟩ => rfl
  have hs1 : scatter_S4096x8192_S4096x2_S4096_n_01_01_1.start (ix1 n) idx 1 = (n.val : Int) := by
    unfold ScatterDims.start
    rw [dif_pos (by decide), ← h1]
    congr 2
    funext b
    refine Fin.ext ?_
    match b with
    | ⟨0, _⟩ => rfl
    | ⟨1, _⟩ => rfl
  have hs : ∀ a, scatter_S4096x8192_S4096x2_S4096_n_01_01_1.start (ix1 n) idx a
      + scatter_S4096x8192_S4096x2_S4096_n_01_01_1.window (ix1 n) a = (n.val : Int) := fun a => by
    rw [hw a]
    match a with
    | ⟨0, _⟩ => simpa using hs0
    | ⟨1, _⟩ => simpa using hs1
  have hb : ∀ a, 0 ≤ scatter_S4096x8192_S4096x2_S4096_n_01_01_1.start (ix1 n) idx a
        + scatter_S4096x8192_S4096x2_S4096_n_01_01_1.window (ix1 n) a
      ∧ scatter_S4096x8192_S4096x2_S4096_n_01_01_1.start (ix1 n) idx a
        + scatter_S4096x8192_S4096x2_S4096_n_01_01_1.window (ix1 n) a < (S4096x8192.size a : Int) := fun a => by
    rw [hs a]
    refine ⟨Int.natCast_nonneg _, ?_⟩
    have hn := n.isLt
    match a with
    | ⟨0, _⟩ => show (n.val : Int) < ((4096 : Nat) : Int); omega
    | ⟨1, _⟩ => show (n.val : Int) < ((8192 : Nat) : Int); omega
  unfold ScatterDims.resultIdx?
  rw [dif_pos hb]
  congr 1
  funext a
  refine Fin.ext ?_
  show (scatter_S4096x8192_S4096x2_S4096_n_01_01_1.start (ix1 n) idx a
    + scatter_S4096x8192_S4096x2_S4096_n_01_01_1.window (ix1 n) a).toNat = _
  rw [hs a, Int.toNat_natCast]
  match a with
  | ⟨0, _⟩ => rfl
  | ⟨1, _⟩ => rfl

variable {F : FTy → Type} [FloatOps F]

theorem fill_diag_apply (x : (⟨S4096x8192, .f32⟩ : BufTy).Contents (Elt F)) (i : Fin 4096) (j : Fin 8192) :
    Host.scatter scatter_S4096x8192_S4096x2_S4096_n_01_01_1 (fun _ b => b) x (val_main_v32 (F := F)) (val_main_v33 (F := F))
        (ix2 i j)
      = if i.val = j.val then FloatOps.ofBits (F := F) .f32 0x49742400#32 else x (ix2 i j) := by
  have hres : ∀ n : Fin 4096, scatter_S4096x8192_S4096x2_S4096_n_01_01_1.resultIdx? (ix1 n) (val_main_v32 (F := F))
      = some (ix2 n (⟨n.val, by omega⟩ : Fin 8192)) := fun n =>
    resultIdx_diag _ n (by rw [idx_col0, toInt_word]) (by rw [idx_col1, toInt_word])
  by_cases h : i.val = j.val
  · rw [if_pos h]
    refine scatter_hit _ x _ _ _ (fun u => ?_) _ (ix1 i) ?_
    · rw [val_main_v33_apply, val_main_cst_6_apply]
    · rw [hres i]
      exact congrArg some (congrArg (ix2 i) (Fin.ext h))
  · rw [if_neg h]
    refine scatter_miss _ x _ _ _ (fun u e => h ?_)
    obtain ⟨n, rfl⟩ : ∃ n, u = ix1 n := ⟨u 0, eq_ix1 u⟩
    rw [hres n] at e
    have e' := Option.some.inj e
    have e0 : n.val = i.val := congrArg (fun f => (f 0).val) e'
    have e1 : n.val = j.val := congrArg (fun f => (f 1).val) e'
    omega

end Diag

end Cert.ReferenceIdeal.RefScatter

end
-- ==== Proof.RefDist.lean ====
import proofs.«405954_j50337016709322_3_alg».proof.Proof.RefScatter
import proofs.«405954_j50337016709322_3_alg».proof.Proof.Spec
import Idealize.ShloMosaic.PureOps.Ideal.Laws

noncomputable section

open scoped BigOperators

namespace Cert.ReferenceIdeal.RefDist

open Cert.ReferenceIdeal Cert.ReferenceIdeal.Gen Cert.ReferenceIdeal.Read Idealize.ShloMosaic Idealize.ShloMosaic.ValueIdx
open Cert.BiNorm

abbrev mat (x : (⟨S4096x512, .f32⟩ : BufTy).Contents (Elt Ideal)) : Mat 4096 512 := fun i k => x (ix2 i k)

variable (x0 x1 : (⟨S4096x512, .f32⟩ : BufTy).Contents (Elt Ideal))

theorem targets_apply (j : Fin 8192) (d : Fin 512) :
    val_main_v0 (F := Ideal) x0 x1 (ix2 j d) = tgt (mat x0) (mat x1) j d := by
  unfold val_main_v0 tgt
  by_cases h : j.val < 4096
  · rw [dif_pos h]
    exact concatenate_pair_apply_left (t := S8192x512) (s₁ := S4096x512) (s₂ := S4096x512) (0 : Fin 2) _ _ _ (ix2 j d) rfl
      (ix2 (⟨j.val, h⟩ : Fin 4096) d) (fun b => by match b with | ⟨0, _⟩ => rfl | ⟨1, _⟩ => rfl)
  · rw [dif_neg h]
    exact concatenate_pair_apply_right (t := S8192x512) (s₁ := S4096x512) (s₂ := S4096x512) (0 : Fin 2) _ _ _ (ix2 j d) rfl rfl
      (ix2 (⟨j.val - 4096, by omega⟩ : Fin 4096) d)
      (fun b hb => by match b with | ⟨0, _⟩ => exact absurd rfl hb | ⟨1, _⟩ => rfl)
      (by show j.val - 4096 + 4096 = j.val; omega)

theorem sqNorm_rows (i : Fin 4096) : val_main_v2 (F := Ideal) x0 (ix1 i) = sqNorm (mat x0) i := by
  rw [val_main_v2_apply, val_main_cst_apply, Ideal.ofBits_def, Ideal.ofBits_zero_f32, zero_add]
  refine Finset.sum_congr rfl fun k _ => ?_
  rw [val_main_v1_apply, Ideal.mulf_def]
  have e : idx_main_v2 (ix1 i) k = ix2 i k := funext fun a => Fin.ext (by match a with | ⟨0, _⟩ => rfl | ⟨1, _⟩ => rfl)
  rw [e]

theorem sqNorm_targets (j : Fin 8192) : val_main_v5 (F := Ideal) x0 x1 (ix1 j) = sqNorm (tgt (mat x0) (mat x1)) j := by
  rw [val_main_v5_apply, val_main_cst_0_apply, Ideal.ofBits_def, Ideal.ofBits_zero_f32, zero_add]
  refine Finset.sum_congr rfl fun k _ => ?_
  have e : idx_main_v5 (ix1 j) k = ix2 j k := funext fun a => Fin.ext (by match a with | ⟨0, _⟩ => rfl | ⟨1, _⟩ => rfl)
  rw [val_main_v4_apply, Ideal.mulf_def, e, targets_apply]

theorem inner_apply (i : Fin 4096) (j : Fin 8192) :
    val_main_v12 (F := Ideal) x0 x1 (ix2 i j) = inner (mat x0) (tgt (mat x0) (mat x1)) i j := by
  rw [val_main_v12_apply]
  refine Finset.sum_congr rfl fun k _ => ?_
  have el : lidx_main_v12 (ix2 i j) k = ix2 i k := funext fun a => Fin.ext (by match a with | ⟨0, _⟩ => rfl | ⟨1, _⟩ => rfl)
  have er : idx_main_v11 (ridx_main_v12 (ix2 i j) k) = ix2 j k :=
    funext fun a => Fin.ext (by match a with | ⟨0, _⟩ => rfl | ⟨1, _⟩ => rfl)
  rw [val_main_v11_apply, el, er, targets_apply]

theorem rawDist_apply (i : Fin 4096) (j : Fin 8192) :
    val_main_v18 (F := Ideal) x0 x1 (ix2 i j)
      = Ideal.sqrt (max (sqDist (mat x0) (tgt (mat x0) (mat x1)) i j) 0) := by
  have e3 : idx_main_v3 (idx_main_v8 (ix2 i j)) = ix1 i := funext fun a => Fin.ext (by match a with | ⟨0, _⟩ => rfl)
  have e6 : idx_main_v6 (idx_main_v7 (idx_main_v9 (ix2 i j))) = ix1 j := funext fun a => Fin.ext (by match a with | ⟨0, _⟩ => rfl)
  rw [val_main_v18_apply, val_main_v17_apply, val_main_v15_apply, val_main_v10_apply, val_main_v8_apply, val_main_v3_apply,
    val_main_v9_apply, val_main_v7_apply, val_main_v6_apply, val_main_v14_apply, val_main_v13_apply, val_main_cst_1_apply,
    val_main_v16_apply, val_main_cst_2_apply, e3, e6, sqNorm_rows, sqNorm_targets, inner_apply]
  simp only [Ideal.hostUnary_sqrt_def, Ideal.maximumf_def, Ideal.subf_def, Ideal.addf_def, Ideal.mulf_def, Ideal.ofBits_def,
    Ideal.ofBits_zero_f32]
  rfl

theorem dist_apply (i : Fin 4096) (j : Fin 8192) :
    val_main_v34 (F := Ideal) x0 x1 (ix2 i j) = Cert.BiNorm.dist (mat x0) (mat x1) i j := by
  unfold val_main_v34 Cert.BiNorm.dist
  rw [RefScatter.fill_diag_apply, rawDist_apply]
  rfl

end Cert.ReferenceIdeal.RefDist

end
-- ==== Proof.RefNorm.lean ====
import proofs.«405954_j50337016709322_3_alg».proof.Proof.RefDist

noncomputable section

open scoped BigOperators

namespace Cert.ReferenceIdeal.RefNorm

open Cert.ReferenceIdeal Cert.ReferenceIdeal.Gen Cert.ReferenceIdeal.Read Idealize.ShloMosaic Idealize.ShloMosaic.ValueIdx
open Cert.BiNorm Cert.ReferenceIdeal.RefDist

variable (x0 x1 : (⟨S4096x512, .f32⟩ : BufTy).Contents (Elt Ideal))

theorem sim_apply (i : Fin 4096) (j : Fin 8192) :
    val_main_v38 (F := Ideal) x0 x1 (ix2 i j) = simDiv (mat x0) (mat x1) i j := by
  rw [val_main_v38_apply, val_main_v37_apply, val_main_v35_apply, val_main_v36_apply, val_main_cst_7_apply, dist_apply]
  rfl

theorem rowSum_apply (i : Fin 4096) :
    val_main_v39 (F := Ideal) x0 x1 (ix1 i) = rowSum (simDiv (mat x0) (mat x1)) i := by
  rw [val_main_v39_apply, val_main_cst_8_apply, Ideal.ofBits_def, Ideal.ofBits_zero_f32, zero_add]
  refine Finset.sum_congr rfl fun k _ => ?_
  have e : idx_main_v39 (ix1 i) k = ix2 i k := funext fun a => Fin.ext (by match a with | ⟨0, _⟩ => rfl | ⟨1, _⟩ => rfl)
  rw [e, sim_apply]

theorem colSum_apply (j : Fin 8192) :
    val_main_v41 (F := Ideal) x0 x1 (ix1 j) = colSum (simDiv (mat x0) (mat x1)) j := by
  rw [val_main_v41_apply, val_main_cst_9_apply, Ideal.ofBits_def, Ideal.ofBits_zero_f32, zero_add]
  refine Finset.sum_congr rfl fun k _ => ?_
  have e : idx_main_v41 (ix1 j) k = ix2 k j := funext fun a => Fin.ext (by match a with | ⟨0, _⟩ => rfl | ⟨1, _⟩ => rfl)
  rw [e, sim_apply]

theorem norm_apply (i : Fin 4096) (j : Fin 8192) :
    val_main_v49 (F := Ideal) x0 x1 (ix2 i j) = normDiv (simDiv (mat x0) (mat x1)) i j := by
  have er : idx_main_v40 (idx_main_v43 (ix2 i j)) = ix1 i := funext fun a => Fin.ext (by match a with | ⟨0, _⟩ => rfl)
  have ec : idx_main_v42 (idx_main_v44 (ix2 i j)) = ix1 j := funext fun a => Fin.ext (by match a with | ⟨0, _⟩ => rfl)
  rw [val_main_v49_apply, val_main_v48_apply, val_main_v47_apply, val_main_v45_apply, val_main_v43_apply, val_main_v40_apply,
    val_main_v44_apply, val_main_v42_apply, val_main_v46_apply, val_main_cst_10_apply, er, ec, rowSum_apply, colSum_apply,
    sim_apply]
  rfl

end Cert.ReferenceIdeal.RefNorm

end
-- ==== Proof.RefValue.lean ====
import proofs.«405954_j50337016709322_3_alg».proof.Defs
import proofs.«405954_j50337016709322_3_alg».proof.Proof.Gen.ReferenceIdeal.Run
import proofs.«405954_j50337016709322_3_alg».proof.Proof.Gen.ReferenceIdeal.Read
import proofs.«405954_j50337016709322_3_alg».proof.Proof.Spec
import proofs.«405954_j50337016709322_3_alg».proof.Proof.RefNorm
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
open Cert.BiNorm Cert.ReferenceIdeal.RefDist Cert.ReferenceIdeal.RefNorm

variable (x0 x1 : (⟨S4096x512, .f32⟩ : BufTy).Contents (Elt Ideal))

abbrev nrm : Mat 4096 8192 := normDiv (simDiv (mat x0) (mat x1))

theorem half_lo_apply (i c : Fin 4096) : val_main_v50 (F := Ideal) x0 x1 (ix2 i c) = nrm x0 x1 i (lo c) := by
  have e : idx_main_v50 (ix2 i c) = ix2 i (lo c) := funext fun a => Fin.ext (by match a with | ⟨0, _⟩ => rfl | ⟨1, _⟩ => rfl)
  rw [val_main_v50_apply, e, norm_apply]

theorem half_hi_apply (i c : Fin 4096) : val_main_v51 (F := Ideal) x0 x1 (ix2 i c) = nrm x0 x1 i (hi c) := by
  have e : idx_main_v51 (ix2 i c) = ix2 i (hi c) :=
    funext fun a => Fin.ext (by match a with | ⟨0, _⟩ => rfl | ⟨1, _⟩ => exact Nat.add_comm 4096 c.val)
  rw [val_main_v51_apply, e, norm_apply]

theorem sumLo_apply (i : Fin 4096) : val_main_v52 (F := Ideal) x0 x1 (ix1 i) = sumLo (nrm x0 x1) i := by
  rw [val_main_v52_apply, val_main_cst_11_apply, Ideal.ofBits_def, Ideal.ofBits_zero_f32, zero_add]
  refine Finset.sum_congr rfl fun k _ => ?_
  have e : idx_main_v52 (ix1 i) k = ix2 i k := funext fun a => Fin.ext (by match a with | ⟨0, _⟩ => rfl | ⟨1, _⟩ => rfl)
  rw [e, half_lo_apply]

theorem sumHi_apply (i : Fin 4096) : val_main_v56 (F := Ideal) x0 x1 (ix1 i) = sumHi (nrm x0 x1) i := by
  rw [val_main_v56_apply, val_main_cst_12_apply, Ideal.ofBits_def, Ideal.ofBits_zero_f32, zero_add]
  refine Finset.sum_congr rfl fun k _ => ?_
  have e : idx_main_v56 (ix1 i) k = ix2 i k := funext fun a => Fin.ext (by match a with | ⟨0, _⟩ => rfl | ⟨1, _⟩ => rfl)
  rw [e, half_hi_apply]

theorem coeffHi_apply (i c : Fin 4096) :
    val_main_v55 (F := Ideal) x0 x1 (ix2 i c) = nrm x0 x1 i (hi c) * sumLo (nrm x0 x1) i := by
  have e : idx_main_v53 (idx_main_v54 (ix2 i c)) = ix1 i := funext fun a => Fin.ext (by match a with | ⟨0, _⟩ => rfl)
  rw [val_main_v55_apply, val_main_v54_apply, val_main_v53_apply, e, half_hi_apply, sumLo_apply, Ideal.mulf_def]

theorem coeffLo_apply (i c : Fin 4096) :
    val_main_v59 (F := Ideal) x0 x1 (ix2 i c) = nrm x0 x1 i (lo c) * sumHi (nrm x0 x1) i := by
  have e : idx_main_v57 (idx_main_v58 (ix2 i c)) = ix1 i := funext fun a => Fin.ext (by match a with | ⟨0, _⟩ => rfl)
  rw [val_main_v59_apply, val_main_v58_apply, val_main_v57_apply, e, half_lo_apply, sumHi_apply, Ideal.mulf_def]

theorem result_eq (a : Fin 4096) (d : Fin 512) :
    val_main_v62 (F := Ideal) x0 x1 (ix2 a d) = wholeResult (fun i k => x0 (ix2 i k)) (fun i k => x1 (ix2 i k)) a d := by
  have el : ∀ k : Fin 4096, lidx_main_v60 (ix2 a d) k = ix2 a k :=
    fun k => funext fun b => Fin.ext (by match b with | ⟨0, _⟩ => rfl | ⟨1, _⟩ => rfl)
  have er : ∀ k : Fin 4096, ridx_main_v60 (ix2 a d) k = ix2 k d :=
    fun k => funext fun b => Fin.ext (by match b with | ⟨0, _⟩ => rfl | ⟨1, _⟩ => rfl)
  have el' : ∀ k : Fin 4096, lidx_main_v61 (ix2 a d) k = ix2 a k :=
    fun k => funext fun b => Fin.ext (by match b with | ⟨0, _⟩ => rfl | ⟨1, _⟩ => rfl)
  have er' : ∀ k : Fin 4096, ridx_main_v61 (ix2 a d) k = ix2 k d :=
    fun k => funext fun b => Fin.ext (by match b with | ⟨0, _⟩ => rfl | ⟨1, _⟩ => rfl)
  rw [val_main_v62_apply, val_main_v60_apply, val_main_v61_apply, Ideal.subf_def]
  show _ = innerForm (nrm x0 x1) (mat x0) (mat x1) a d
  unfold innerForm
  refine congrArg₂ (· - ·) (Finset.sum_congr rfl fun k _ => ?_) (Finset.sum_congr rfl fun k _ => ?_)
  · rw [el, er, coeffHi_apply]
  · rw [el', er', coeffLo_apply]

end Cert.ReferenceIdeal.RefValue

end
-- ==== Proof.FiniteIn.lean ====
import proofs.«405954_j50337016709322_3_alg».proof.Pre_finite_inputs
import proofs.«405954_j50337016709322_3_alg».proof.Proof.Spec
import Idealize.ShloMosaic.Lib.ValueIdx
import Idealize.ShloMosaic.Lib.ReduceAll

noncomputable section

namespace Cert.FiniteIn

open Idealize.ShloMosaic Idealize.ShloMosaic.ValueIdx

instance : Subsingleton Cert.Pre_finite_inputs.S_.Idx := ⟨fun a b => funext fun d => d.elim0⟩

theorem real_of_abs_lt (x : EReal)
    (h : Ideal.cmp .olt (max x (-x)) (Ideal.ofBits .f32 0x7F800000#32) = 1#1) : ∃ r : ℝ, x = (r : EReal) := by
  induction x using EReal.rec with
  | bot => exact absurd h (by simp [Ideal.cmp, Ideal.ofBits, Ideal.ieee])
  | coe r => exact ⟨r, rfl⟩
  | top => exact absurd h (by simp [Ideal.cmp, Ideal.ofBits, Ideal.ieee])

theorem finite_of_all [Cert.Pre_finite_inputs.Facts]
    (x : (⟨2, ![4096, 512]⟩ : Shape).Idx → EReal)
    (e : Host.reduce IntOp.andi
        (cmpf (F := Ideal) .olt (Host.absf (F := Ideal) (φ := .f32) (s := Cert.Pre_finite_inputs.S4096x512) x)
          (broadcastInDim Cert.Pre_finite_inputs.S4096x512 ![] Cert.Pre_finite_inputs.Facts.bcast_S_S4096x512
            (constant (F := Ideal) Cert.Pre_finite_inputs.S_ .f32 0x7F800000#32)))
        (constantI Cert.Pre_finite_inputs.S_ 1 1#1) Cert.Pre_finite_inputs.Facts.reducesTo_S4096x512_S_d0_1
        Cert.Pre_finite_inputs.Facts.h_S_ ix0 = 1#1) :
    Cert.BiNorm.Finite (fun a d => x (ix2 a d)) := fun a d =>
  real_of_abs_lt (x (ix2 a d)) (Host.reduce_andi_all _ _ _ _ ix0 e (ix2 a d))

theorem finite_of_pre [Cert.Pre_finite_inputs.Facts]
    (x0 x1 : (⟨2, ![4096, 512]⟩ : Shape).Idx → EReal)
    (h : Cert.Pre_finite_inputs.fn (F := Ideal) x0 x1 = (fun _ => 1#1)) :
    Cert.BiNorm.Finite (fun a d => x0 (ix2 a d)) ∧ Cert.BiNorm.Finite (fun a d => x1 (ix2 a d)) := by
  have h0 := congrFun h ValueIdx.ix0
  dsimp only [Cert.Pre_finite_inputs.fn] at h0
  obtain ⟨e0, e1⟩ := IntOp.andi_eq_one.1 h0
  exact ⟨finite_of_all x0 e0, finite_of_all x1 e1⟩

end Cert.FiniteIn

end
-- ==== Proof.AlgebraLits.lean ====
import proofs.«405954_j50337016709322_3_alg».proof.Proof.Spec

noncomputable section

namespace Cert.BiNorm

open Idealize.ShloMosaic

theorem two_eq : two = ((2 : ℝ) : EReal) := by
  unfold two
  simp [Ideal.ofBits, Ideal.ieee, -EReal.coe_mul]; norm_num

theorem fill_eq : fill = ((1000000 : ℝ) : EReal) := by
  unfold fill
  simp [Ideal.ofBits, Ideal.ieee, -EReal.coe_mul]; norm_num

theorem temp_eq : temp = ((13421773 / 268435456 : ℝ) : EReal) := by
  unfold temp
  simp [Ideal.ofBits, Ideal.ieee, -EReal.coe_mul]; norm_num

theorem floorEps_eq : ∃ e : ℝ, 0 < e ∧ floorEps = (e : EReal) := by
  refine ⟨9223372 * (2 : ℝ) ^ (-63 : ℤ), by positivity, ?_⟩
  unfold floorEps
  simp [Ideal.ofBits, Ideal.ieee, -EReal.coe_mul]

end Cert.BiNorm

end
-- ==== Proof.Algebra.lean ====
import proofs.«405954_j50337016709322_3_alg».proof.Proof.AlgebraLits

noncomputable section

open scoped BigOperators

namespace Cert.BiNorm

open Idealize.ShloMosaic

theorem coe_sum {ι : Type*} (s : Finset ι) (f : ι → ℝ) :
    ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

theorem coe_max (a b : ℝ) : ((max a b : ℝ) : EReal) = max (a : EReal) (b : EReal) :=
  EReal.coe_strictMono.monotone.map_max

theorem Finite.exists_real {a b : ℕ} {x : Mat a b} (hx : Finite x) :
    ∃ X : Fin a → Fin b → ℝ, x = fun i d => (X i d : EReal) := by
  choose X hX using hx
  exact ⟨X, funext fun i => funext fun d => hX i d⟩

theorem finite_tgt {g p : Mat 4096 512} (hg : Finite g) (hp : Finite p) : Finite (tgt g p) := by
  intro j d
  unfold tgt
  split_ifs
  · exact hg _ _
  · exact hp _ _

theorem sqDist_real {n k : ℕ} {x : Mat n 512} {y : Mat k 512} (hx : Finite x) (hy : Finite y) (i : Fin n) (j : Fin k) :
    ∃ r : ℝ, sqDist x y i j = (r : EReal) := by
  obtain ⟨X, rfl⟩ := hx.exists_real
  obtain ⟨Y, rfl⟩ := hy.exists_real
  refine ⟨(∑ d, X i d * X i d) + (∑ d, Y j d * Y j d) - 2 * ∑ d, X i d * Y j d, ?_⟩
  unfold sqDist sqNorm inner
  rw [two_eq, EReal.coe_sub, EReal.coe_add, EReal.coe_mul, coe_sum, coe_sum, coe_sum]
  simp only [EReal.coe_mul]

theorem dist_real {g p : Mat 4096 512} (hg : Finite g) (hp : Finite p) (i : Fin 4096) (j : Fin 8192) :
    ∃ r : ℝ, dist g p i j = (r : EReal) := by
  unfold dist
  split_ifs
  · exact ⟨1000000, fill_eq⟩
  · obtain ⟨r, hr⟩ := sqDist_real hg (finite_tgt hg hp) i j
    refine ⟨Real.sqrt (max r 0), ?_⟩
    rw [hr, ← EReal.coe_zero, ← coe_max, Ideal.sqrt_coe, if_neg (not_lt.mpr (le_max_right r 0))]

theorem mul_negInvTemp (r : ℝ) : (r : EReal) * negInvTemp = ((r * (-268435456 / 13421773) : ℝ) : EReal) := by
  unfold negInvTemp
  rw [EReal.coe_mul]

theorem div_temp (r : ℝ) : Ideal.div (-(r : EReal)) temp = ((r * (-268435456 / 13421773) : ℝ) : EReal) := by
  rw [temp_eq, Ideal.div_coe (by norm_num), ← EReal.coe_neg, ← EReal.coe_mul]
  congr 1
  ring

theorem simMul_eq_simDiv {g p : Mat 4096 512} (hg : Finite g) (hp : Finite p) : simMul g p = simDiv g p := by
  funext i j
  unfold simMul simDiv
  obtain ⟨r, hr⟩ := dist_real hg hp i j
  rw [hr, mul_negInvTemp, div_temp]

theorem simDiv_real {g p : Mat 4096 512} (hg : Finite g) (hp : Finite p) :
    ∃ k : Fin 4096 → Fin 8192 → ℝ, simDiv g p = fun i j => (k i j : EReal) := by
  refine Finite.exists_real (fun i j => ?_)
  obtain ⟨r, hr⟩ := dist_real hg hp i j
  refine ⟨Real.exp (r * (-268435456 / 13421773)), ?_⟩
  unfold simDiv
  rw [hr, div_temp, Ideal.exp_coe]

theorem norm_real (k : Fin 4096 → Fin 8192 → ℝ) :
    normMul (fun i j => (k i j : EReal)) = normDiv (fun i j => (k i j : EReal)) ∧
      ∃ n : Fin 4096 → Fin 8192 → ℝ, normDiv (fun i j => (k i j : EReal)) = fun i j => (n i j : EReal) := by
  obtain ⟨e, he, hfe⟩ := floorEps_eq
  have key : ∀ i j, ∃ y : ℝ, 0 < y ∧
      max (rowSum (fun i j => (k i j : EReal)) i * colSum (fun i j => (k i j : EReal)) j) floorEps = (y : EReal) := by
    intro i j
    refine ⟨max ((∑ j', k i j') * (∑ i', k i' j)) e, lt_of_lt_of_le he (le_max_right _ _), ?_⟩
    unfold rowSum colSum
    rw [hfe, ← coe_sum, ← coe_sum, ← EReal.coe_mul, ← coe_max]
  choose y hy0 hy using key
  have hdiv : ∀ i j, normDiv (fun i j => (k i j : EReal)) i j = ((k i j * (Real.sqrt (y i j))⁻¹ : ℝ) : EReal) := by
    intro i j
    unfold normDiv
    rw [hy, Ideal.sqrt_coe, if_neg (not_lt.mpr (hy0 i j).le),
      Ideal.div_coe (Real.sqrt_pos.mpr (hy0 i j)).ne', one_div, ← EReal.coe_mul]
  have hmul : ∀ i j, normMul (fun i j => (k i j : EReal)) i j = ((k i j * (Real.sqrt (y i j))⁻¹ : ℝ) : EReal) := by
    intro i j
    unfold normMul
    rw [hy, Ideal.rsqrt_coe, if_neg (not_lt.mpr (hy0 i j).le), if_neg (hy0 i j).ne', ← EReal.coe_mul]
  exact ⟨funext fun i => funext fun j => (hmul i j).trans (hdiv i j).symm,
    fun i j => k i j * (Real.sqrt (y i j))⁻¹, funext fun i => funext fun j => hdiv i j⟩

theorem outer_eq_innerForm (n : Fin 4096 → Fin 8192 → ℝ) (G P : Fin 4096 → Fin 512 → ℝ) :
    outer (fun i j => (n i j : EReal)) (fun i d => (G i d : EReal)) (fun i d => (P i d : EReal))
      = innerForm (fun i j => (n i j : EReal)) (fun i d => (G i d : EReal)) (fun i d => (P i d : EReal)) := by
  funext i d
  unfold outer innerForm sumLo sumHi
  simp only [← EReal.coe_mul, ← coe_sum, ← EReal.coe_sub]
  congr 1
  rw [Finset.mul_sum, Finset.mul_sum]
  congr 1 <;> exact Finset.sum_congr rfl (fun j _ => by ring)

theorem tiled_eq_whole (g p : Mat 4096 512) (hg : Finite g) (hp : Finite p) : tiledResult g p = wholeResult g p := by
  unfold tiledResult wholeResult
  rw [simMul_eq_simDiv hg hp]
  obtain ⟨k, hk⟩ := simDiv_real hg hp
  rw [hk]
  obtain ⟨hnorm, n, hn⟩ := norm_real k
  rw [hnorm, hn]
  obtain ⟨G, rfl⟩ := hg.exists_real
  obtain ⟨P, rfl⟩ := hp.exists_real
  exact outer_eq_innerForm n G P

end Cert.BiNorm

end
-- ==== Proof.lean ====
/- Both programs compute one drift field from 4096 generated and 4096 positive points: each runs to the end with its
   arguments unchanged, and on finite inputs both results are the tiled form of the inputs, which equals the whole form. -/
import proofs.«405954_j50337016709322_3_alg».proof.Defs
import proofs.«405954_j50337016709322_3_alg».proof.Proof.Gen.Kernel
import proofs.«405954_j50337016709322_3_alg».proof.Proof.Gen.KernelIdeal
import proofs.«405954_j50337016709322_3_alg».proof.Proof.Gen.ReferenceIdeal
import proofs.«405954_j50337016709322_3_alg».proof.Proof.Gen.Pre_finite_inputs
import proofs.«405954_j50337016709322_3_alg».proof.Proof.Gen.ReferenceIdeal.Run
import proofs.«405954_j50337016709322_3_alg».proof.Proof.Gen.ReferenceIdeal.Read
import proofs.«405954_j50337016709322_3_alg».proof.Proof.Small
import proofs.«405954_j50337016709322_3_alg».proof.Proof.WordHalf1Inst
import proofs.«405954_j50337016709322_3_alg».proof.Proof.Result
import proofs.«405954_j50337016709322_3_alg».proof.Proof.RefValue
import proofs.«405954_j50337016709322_3_alg».proof.Proof.FiniteIn
import proofs.«405954_j50337016709322_3_alg».proof.Proof.Algebra

noncomputable section

namespace Cert.Proof

open Idealize.ShloMosaic Idealize.ShloMosaic.ValueIdx Idealize.SL.Sem

theorem frame_k : Cert.frame_Kernel := fun m ρ _ =>
  (θ_run Cert.Kernel.defs _ _).mono (fun _ h c => ⟨(h c).2.1, (h c).2.2⟩) (Cert.Kernel.Hand.run_whole (F := Bits) m ρ)

theorem frame_ki : Cert.frame_KernelIdeal := fun m ρ _ =>
  (θ_run Cert.KernelIdeal.defs _ _).mono (fun _ h c => ⟨(h c).2.1, (h c).2.2⟩) (Cert.KernelIdeal.Hand.run_whole (F := Ideal) m ρ)

theorem algebraic : Cert.algebraic_KernelIdeal_ReferenceIdeal := by
  intro m ρ m' ρ' hpre hagree
  refine ⟨fun c => (fun idx => Cert.BiNorm.tiledResult (Cert.KernelIdeal.Entry.gIn m c) (Cert.KernelIdeal.Entry.pIn m c) (idx 0) (idx 1) :
      Vec Ideal Cert.KernelIdeal.S4096x512 .f32), ?_, ?_⟩
  · refine (θ_run Cert.KernelIdeal.defs _ _).mono (fun _ h c => ⟨(h c).1.trans ?_, (h c).2.1, (h c).2.2⟩)
      (Cert.KernelIdeal.Hand.run_whole (F := Ideal) m ρ)
    funext idx
    obtain ⟨a, d, rfl⟩ : ∃ (a : Fin 4096) (d : Fin 512), idx = ix2 a d := ⟨idx 0, idx 1, eq_ix2 idx⟩
    exact Cert.KernelIdeal.Entry.result_apply m ρ c a d
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v62_eq, (hagree c).1, (hagree c).2]
    funext idx
    obtain ⟨a, d, rfl⟩ : ∃ (a : Fin 4096) (d : Fin 512), idx = ix2 a d := ⟨idx 0, idx 1, eq_ix2 idx⟩
    obtain ⟨hg, hp⟩ := Cert.FiniteIn.finite_of_pre _ _ (hpre c)
    rw [Cert.ReferenceIdeal.RefValue.result_eq]
    exact (congrFun (congrFun (Cert.BiNorm.tiled_eq_whole _ _ hg hp) a) d).symm

theorem claim : Cert.Claim :=
  ⟨Cert.Kernel.Gen.facts, Cert.KernelIdeal.Gen.facts, Cert.ReferenceIdeal.Gen.facts, Cert.Pre_finite_inputs.Gen.facts,
    frame_k, frame_ki, Cert.Proof.Small.frame_ri, Cert.Proof.Small.preserves, algebraic⟩

end Cert.Proof

end
